-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S6144x16 : Shape := ⟨2, ![6144, 16]⟩
abbrev S2048x2048 : Shape := ⟨2, ![2048, 2048]⟩
abbrev S6144x6144 : Shape := ⟨2, ![6144, 6144]⟩
abbrev S2048x6144 : Shape := ⟨2, ![2048, 6144]⟩
abbrev S128x64 : Shape := ⟨2, ![128, 64]⟩
abbrev S64 : Shape := ⟨1, ![64]⟩
abbrev S1x16 : Shape := ⟨2, ![1, 16]⟩
abbrev S16x16 : Shape := ⟨2, ![16, 16]⟩
abbrev S16 : Shape := ⟨1, ![16]⟩
abbrev S1x64 : Shape := ⟨2, ![1, 64]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S6144x16 : S_.BroadcastsInDim S6144x16 (![] : Fin 0 → Fin S6144x16.rank)
  reducesTo_S6144x16_S_d0_1 : S6144x16.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S6144x6144 : S_.BroadcastsInDim S6144x6144 (![] : Fin 0 → Fin S6144x6144.rank)
  reducesTo_S6144x6144_S_d0_1 : S6144x6144.ReducesTo [0, 1] S_
  bcast_S_S2048x6144 : S_.BroadcastsInDim S2048x6144 (![] : Fin 0 → Fin S2048x6144.rank)
  reducesTo_S2048x6144_S_d0_1 : S2048x6144.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1x16 : S_.BroadcastsInDim S1x16 (![] : Fin 0 → Fin S1x16.rank)
  reducesTo_S1x16_S_d0_1 : S1x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  main_v53

def fn_part2 {F : FTy → Type} [FloatOps F] (main_arg7 : FVec F S1x16 .f32) (main_arg8 : FVec F S16x16 .f32) (main_arg9 : FVec F S16 .f32) (main_arg10 : FVec F S1x64 .f32) (main_v33 : IVec S_ 1) : IVec S_ 1 :=
  let main_v34 : FVec F S1x16 .f32 := Host.absf main_arg7
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S16x16 .f32 := Host.absf main_arg8
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_v48 main_v49 main_v50

def fn_part1 {F : FTy → Type} [FloatOps F] (main_arg4 : FVec F S2048x6144 .f32) (main_arg5 : FVec F S128x64 .f32) (main_arg6 : FVec F S64 .f32) (main_arg7 : FVec F S1x16 .f32) (main_arg8 : FVec F S16x16 .f32) (main_arg9 : FVec F S16 .f32) (main_arg10 : FVec F S1x64 .f32) (main_v13 : IVec S_ 1) (main_v16 : IVec S6144x6144 1) : IVec S_ 1 :=
  let main_c_5 : IVec S_ 1 := constantI S_ 1 1#1
  let main_v17 : IVec S_ 1 := (fun x v => Host.reduce IntOp.andi x v reducesTo_S6144x6144_S_d0_1 h_S_) main_v16 main_c_5
  let main_v18 : IVec S_ 1 := andi main_v13 main_v17
  let main_v19 : FVec F S2048x6144 .f32 := Host.absf main_arg4
  let main_cst_6 : FVec F S_ .f32 := constant S_ .f32 0x7F800000#32
  let main_v20 : FVec F S2048x6144 .f32 := broadcastInDim S2048x6144 ![] bcast_S_S2048x6144 main_cst_6
  let main_v21 : IVec S2048x6144 1 := cmpf .olt main_v19 main_v20
  let main_c_7 : IVec S_ 1 := constantI S_ 1 1#1
  let main_v22 : IVec S_ 1 := (fun x v => Host.reduce IntOp.andi x v reducesTo_S2048x6144_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x128 .f32) (main_arg1 : FVec F S6144x16 .f32) (main_arg2 : FVec F S2048x2048 .f32) (main_arg3 : FVec F S6144x6144 .f32) (main_arg4 : FVec F S2048x6144 .f32) (main_arg5 : FVec F S128x64 .f32) (main_arg6 : FVec F S64 .f32) (main_arg7 : FVec F S1x16 .f32) (main_arg8 : FVec F S16x16 .f32) (main_arg9 : FVec F S16 .f32) (main_arg10 : FVec F S1x64 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S6144x16 .f32 := Host.absf main_arg1
  let main_cst_0 : FVec F S_ .f32 := constant S_ .f32 0x7F800000#32
  let main_v5 : FVec F S6144x16 .f32 := broadcastInDim S6144x16 ![] bcast_S_S6144x16 main_cst_0
  let main_v6 : IVec S6144x16 1 := cmpf .olt main_v4 main_v5
  let main_c_1 : IVec S_ 1 := constantI S_ 1 1#1
  let main_v7 : IVec S_ 1 := (fun x v => Host.reduce IntOp.andi x v reducesTo_S6144x16_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S6144x6144 .f32 := Host.absf main_arg3
  let main_cst_4 : FVec F S_ .f32 := constant S_ .f32 0x7F800000#32
  let main_v15 : FVec F S6144x6144 .f32 := broadcastInDim S6144x6144 ![] bcast_S_S6144x6144 main_cst_4
  let main_v16 : IVec S6144x6144 1 := cmpf .olt main_v14 main_v15
  fn_part1 (F := F) main_arg4 main_arg5 main_arg6 main_arg7 main_arg8 main_arg9 main_arg10 main_v13 main_v16
-- ==== Kernel.lean ====
abbrev S2048x128 : Shape := ⟨2, ![2048, 128]⟩
abbrev S6144x16 : Shape := ⟨2, ![6144, 16]⟩
abbrev S2048x2048 : Shape := ⟨2, ![2048, 2048]⟩
abbrev S6144x6144 : Shape := ⟨2, ![6144, 6144]⟩
abbrev S2048x6144 : Shape := ⟨2, ![2048, 6144]⟩
abbrev S128x64 : Shape := ⟨2, ![128, 64]⟩
abbrev S64 : Shape := ⟨1, ![64]⟩
abbrev S1x16 : Shape := ⟨2, ![1, 16]⟩
abbrev S16x16 : Shape := ⟨2, ![16, 16]⟩
abbrev S16 : Shape := ⟨1, ![16]⟩
abbrev S1x64 : Shape := ⟨2, ![1, 64]⟩
abbrev S16x1 : Shape := ⟨2, ![16, 1]⟩
abbrev S6144x1 : Shape := ⟨2, ![6144, 1]⟩
abbrev S6144 : Shape := ⟨1, ![6144]⟩
abbrev S2048x64 : Shape := ⟨2, ![2048, 64]⟩
abbrev S1x6144 : Shape := ⟨2, ![1, 6144]⟩
abbrev S2048x512 : Shape := ⟨2, ![2048, 512]⟩
abbrev S1x512 : Shape := ⟨2, ![1, 512]⟩
abbrev S512 : Shape := ⟨1, ![512]⟩
abbrev S64x1 : Shape := ⟨2, ![64, 1]⟩
abbrev S2048x1 : Shape := ⟨2, ![2048, 1]⟩
abbrev S2048 : Shape := ⟨1, ![2048]⟩
abbrev S768x768 : Shape := ⟨2, ![768, 768]⟩
abbrev S1x768 : Shape := ⟨2, ![1, 768]⟩
abbrev S2048x768 : Shape := ⟨2, ![2048, 768]⟩
abbrev S768 : Shape := ⟨1, ![768]⟩
abbrev S768x16 : Shape := ⟨2, ![768, 16]⟩

abbrev nBuf : Space → Nat
  | .hbm => 28
  | .vmem => 26
  | .smem => 0
  | _ => 0

abbrev bufTy : (tb : Table) → Fin (tcTables nBuf tb) → BufTy
  | .hbm, ⟨0, _⟩ => ⟨S2048x128, .f32⟩
  | .hbm, ⟨1, _⟩ => ⟨S6144x16, .f32⟩
  | .hbm, ⟨2, _⟩ => ⟨S2048x2048, .f32⟩
  | .hbm, ⟨3, _⟩ => ⟨S6144x6144, .f32⟩
  | .hbm, ⟨4, _⟩ => ⟨S2048x6144, .f32⟩
  | .hbm, ⟨5, _⟩ => ⟨S128x64, .f32⟩
  | .hbm, ⟨6, _⟩ => ⟨S64, .f32⟩
  | .hbm, ⟨7, _⟩ => ⟨S1x16, .f32⟩
  | .hbm, ⟨8, _⟩ => ⟨S16x16, .f32⟩
  | .hbm, ⟨9, _⟩ => ⟨S16, .f32⟩
  | .hbm, ⟨10, _⟩ => ⟨S1x64, .f32⟩
  | .hbm, ⟨11, _⟩ => ⟨S16x1, .f32⟩
  | .hbm, ⟨12, _⟩ => ⟨S6144x1, .f32⟩
  | .hbm, ⟨13, _⟩ => ⟨S6144, .f32⟩
  | .hbm, ⟨14, _⟩ => ⟨S2048x64, .f32⟩
  | .hbm, ⟨15, _⟩ => ⟨S1x6144, .f32⟩
  | .hbm, ⟨16, _⟩ => ⟨S1x64, .f32⟩
  | .hbm, ⟨17, _⟩ => ⟨S2048x64, .f32⟩
  | .hbm, ⟨18, _⟩ => ⟨S64x1, .f32⟩
  | .hbm, ⟨19, _⟩ => ⟨S2048x1, .f32⟩
  | .hbm, ⟨20, _⟩ => ⟨S2048, .f32⟩
  | .hbm, ⟨21, _⟩ => ⟨S2048x1, .f32⟩
  | .hbm, ⟨22, _⟩ => ⟨S6144x16, .f32⟩
  | .hbm, ⟨23, _⟩ => ⟨S1x16, .f32⟩
  | .hbm, ⟨24, _⟩ => ⟨S2048x6144, .bf16⟩
  | .hbm, ⟨25, _⟩ => ⟨S6144x6144, .f32⟩
  | .hbm, ⟨26, _⟩ => ⟨S1x6144, .f32⟩
  | .hbm, ⟨27, _⟩ => ⟨S6144x16, .f32⟩
  | .local _ .vmem, ⟨0, _⟩ => ⟨S2048x512, .f32⟩
  | .local _ .vmem, ⟨1, _⟩ => ⟨S2048x512, .f32⟩
  | .local _ .vmem, ⟨2, _⟩ => ⟨S1x6144, .f32⟩
  | .local _ .vmem, ⟨3, _⟩ => ⟨S2048x2048, .f32⟩
  | .local _ .vmem, ⟨4, _⟩ => ⟨S2048x64, .f32⟩
  | .local _ .vmem, ⟨5, _⟩ => ⟨S1x64, .f32⟩
  | .local _ .vmem, ⟨6, _⟩ => ⟨S2048x64, .f32⟩
  | .local _ .vmem, ⟨7, _⟩ => ⟨S2048x2048, .f32⟩
  | .local _ .vmem, ⟨8, _⟩ => ⟨S2048x6144, .bf16⟩
  | .local _ .vmem, ⟨9, _⟩ => ⟨S2048x1, .f32⟩
  | .local _ .vmem, ⟨10, _⟩ => ⟨S768x768, .f32⟩
  | .local _ .vmem, ⟨11, _⟩ => ⟨S768x768, .f32⟩
  | .local _ .vmem, ⟨12, _⟩ => ⟨S768x768, .f32⟩
  | .local _ .vmem, ⟨13, _⟩ => ⟨S768x768, .f32⟩
  | .local _ .vmem, ⟨14, _⟩ => ⟨S1x768, .f32⟩
  | .local _ .vmem, ⟨15, _⟩ => ⟨S1x768, .f32⟩
  | .local _ .vmem, ⟨16, _⟩ => ⟨S768x768, .f32⟩
  | .local _ .vmem, ⟨17, _⟩ => ⟨S768x768, .f32⟩
  | .local _ .vmem, ⟨18, _⟩ => ⟨S1x768, .f32⟩
  | .local _ .vmem, ⟨19, _⟩ => ⟨S1x768, .f32⟩
  | .local _ .vmem, ⟨20, _⟩ => ⟨S768x16, .f32⟩
  | .local _ .vmem, ⟨21, _⟩ => ⟨S768x16, .f32⟩
  | .local _ .vmem, ⟨22, _⟩ => ⟨S1x16, .f32⟩
  | .local _ .vmem, ⟨23, _⟩ => ⟨S768x16, .f32⟩
  | .local _ .vmem, ⟨24, _⟩ => ⟨S768x16, .f32⟩
  | .local _ .vmem, ⟨25, _⟩ => ⟨S768x16, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![12], ![false]⟩

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_off1 (i : grid0.Coords) : Fin 2 → Nat :=
  let c0 : Index := 0#32
  let arg0 : BitVec 32 := BitVec.ofNat 32 (i 0).val
  let c512_i32 : BitVec 32 := 512#32
  let v3 : BitVec 32 := Scalar.muli arg0 c512_i32
  let v4 : BitVec 32 := v3
  let v5 : Index := Scalar.indexCast v4
  ![0, v5.toNat]
def k0_cond2 (i : grid0.Coords) : BitVec 1 :=
  let arg0 : BitVec 32 := BitVec.ofNat 32 (i 0).val
  let c11_i32 : BitVec 32 := 11#32
  let v20 : BitVec 1 := Scalar.cmpi .eq arg0 c11_i32
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![8, 8], ![false, false]⟩

def k1_mult1 (i : grid1.Coords) : BitVec 32 :=
  let arg1 : BitVec 32 := BitVec.ofNat 32 (i 1).val
  let c768_i32 : BitVec 32 := 768#32
  let v3 : BitVec 32 := Scalar.muli arg1 c768_i32
  v3
def k1_mult2 (i : grid1.Coords) : BitVec 32 :=
  let arg0 : BitVec 32 := BitVec.ofNat 32 (i 0).val
  let c768_i32_1 : BitVec 32 := 768#32
  let v5 : BitVec 32 := Scalar.muli arg0 c768_i32_1
  v5
def k1_off1 (i : grid1.Coords) : Fin 2 → Nat :=
  let c0 : Index := 0#32
  let arg1 : BitVec 32 := BitVec.ofNat 32 (i 1).val
  let c768_i32 : BitVec 32 := 768#32
  let v3 : BitVec 32 := Scalar.muli arg1 c768_i32
  let v4 : BitVec 32 := v3
  let v7 : Index := Scalar.indexCast v4
  ![0, v7.toNat]
def k1_off2 (i : grid1.Coords) : Fin 2 → Nat :=
  let c0_2 : Index := 0#32
  let arg0 : BitVec 32 := BitVec.ofNat 32 (i 0).val
  let c768_i32_1 : BitVec 32 := 768#32
  let v5 : BitVec 32 := Scalar.muli arg0 c768_i32_1
  let v6 : BitVec 32 := v5
  let v10 : Index := Scalar.indexCast v6
  ![0, v10.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S2048x6144 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S2048x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S768x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S768x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_11 : BitVec 32 := 0#32
  let v23 : BitVec 1 := Scalar.cmpi .ne v22 c0_i32_11
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S768x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S768x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S768x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  transposes_S1x16_S16x1_1_0 : S1x16.Transposes [1, 0] S16x1
  shapeCasts_S6144x1_S6144 : S6144x1.ShapeCasts S6144
  shapeCasts_S6144_S1x6144 : S6144.ShapeCasts S1x6144
  shapeCasts_S64_S1x64 : S64.ShapeCasts S1x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  h_S1x512 : 0 < S1x512.numel
  shapeCasts_S1x512_S512 : S1x512.ShapeCasts S512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  shapeCasts_S512_S1x512 : S512.ShapeCasts S1x512
  broadcasts_S1x512_S2048x512 : S1x512.Broadcasts S2048x512
  iota_S2048x2048_d0_w32 : S2048x2048.Iotas .tc 32 [0]
  iota_S2048x2048_d1_w32 : S2048x2048.Iotas .tc 32 [1]
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  transposes_S1x64_S64x1_1_0 : S1x64.Transposes [1, 0] S64x1
  shapeCasts_S2048x1_S2048 : S2048x1.ShapeCasts S2048
  shapeCasts_S2048_S2048x1 : S2048.ShapeCasts S2048x1
  shapeCasts_S16_S1x16 : S16.ShapeCasts S1x16
  inb_S1x768_S1x768_0_0 : ∀ a, (![0, 0] : Fin 2 → Nat) a + S1x768.size a ≤ S1x768.size a
  h_S1x768 : 0 < S1x768.numel
  h_S2048x768 : 0 < S2048x768.numel
  shapeCasts_S2048x768_S2048x768 : S2048x768.ShapeCasts S2048x768
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x768 : S2048x1.Broadcasts S2048x768
  iota_S768x768_d0_w32 : S768x768.Iotas .tc 32 [0]
  iota_S768x768_d1_w32 : S768x768.Iotas .tc 32 [1]
  inb_S768x768_S768x768_0_0 : ∀ a, (![0, 0] : Fin 2 → Nat) a + S768x768.size a ≤ S768x768.size a
  h_S768x768 : 0 < S768x768.numel
  reduces_S768x768_S768 : S768x768.Reduces [0] S768
  shapeCasts_S768_S1x768 : S768.ShapeCasts S1x768
  shapeCasts_S1x768_S1x768 : S1x768.ShapeCasts S1x768
  inb_S768x16_S768x16_0_0 : ∀ a, (![0, 0] : Fin 2 → Nat) a + S768x16.size a ≤ S768x16.size a
  h_S768x16 : 0 < S768x16.numel
  shapeCasts_S768x16_S768x16 : S768x16.ShapeCasts S768x16
  shapeCasts_S768x768_S768x768 : S768x768.ShapeCasts S768x768
  broadcasts_S1x768_S768x768 : S1x768.Broadcasts S768x768
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S768x16 : S1x16.Broadcasts S768x16
  dot_S6144x16_S16x1_S6144x1_1_0_0_1_n_n_wf : DotDims.WF S6144x16 S16x1 S6144x1 [1] [0] [0] [1] [] []
  dot_S2048x128_S128x64_S2048x64_1_0_0_1_n_n_wf : DotDims.WF S2048x128 S128x64 S2048x64 [1] [0] [0] [1] [] []
  dot_S2048x512_S2048x512_S2048x2048_1_1_0_0_n_n_wf : DotDims.WF S2048x512 S2048x512 S2048x2048 [1] [1] [0] [0] [] []
  dot_S2048x2048_S2048x64_S2048x64_1_0_0_1_n_n_wf : DotDims.WF S2048x2048 S2048x64 S2048x64 [1] [0] [0] [1] [] []
  dot_S2048x64_S64x1_S2048x1_1_0_0_1_n_n_wf : DotDims.WF S2048x64 S64x1 S2048x1 [1] [0] [0] [1] [] []
  dot_S6144x16_S16x16_S6144x16_1_0_0_1_n_n_wf : DotDims.WF S6144x16 S16x16 S6144x16 [1] [0] [0] [1] [] []
  dot_S2048x768_S2048x768_S768x768_0_0_1_1_n_n_wf : DotDims.WF S2048x768 S2048x768 S768x768 [0] [0] [1] [1] [] []
  dot_S768x768_S768x16_S768x16_1_0_0_1_n_n_wf : DotDims.WF S768x768 S768x16 S768x16 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512.size a ≤ S1x6144.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x6144.size a
  hwx0_0 : ∀ i : grid0.Coords, EltTy.bits .f32 = 32 ∨ (Rect.block (s := S2048x6144) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x6144.size a ≤ S1x6144.size a
  hwx0_1 : ∀ i : grid0.Coords, EltTy.bits .f32 = 32 ∨ (Rect.block (s := S1x6144) S1x6144.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .f32 = 32 ∨ (Rect.block (s := S2048x2048) S2048x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S2048x64.size a
  hwx0_5 : ∀ i : grid0.Coords, EltTy.bits .f32 = 32 ∨ (Rect.block (s := S2048x64) S2048x64.size (cc0_transform_5 i) (hinb0_5 i)).WholeWords (EltTy.packing .f32)
  hrank1 : 0 < grid1.rank
  k1_mult1_dvd : ∀ i : grid1.Coords, 768 ∣ (k1_mult1 i).toNat
  k1_mult2_dvd : ∀ i : grid1.Coords, 768 ∣ (k1_mult2 i).toNat
  k1_off1_inb : ∀ i : grid1.Coords, ∀ a, (k1_off1 i) a + S2048x768.size a ≤ S2048x6144.size a
  k1_off2_inb : ∀ i : grid1.Coords, ∀ a, (k1_off2 i) a + S2048x768.size a ≤ S2048x6144.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x6144.size a ≤ S2048x6144.size a
  hwx1_0 : ∀ i : grid1.Coords, EltTy.bits .bf16 = 32 ∨ (Rect.block (s := S2048x6144) S2048x6144.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S2048x1.size a
  hwx1_1 : ∀ i : grid1.Coords, EltTy.bits .f32 = 32 ∨ (Rect.block (s := S2048x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S6144x6144.size a
  hwx1_2 : ∀ i : grid1.Coords, EltTy.bits .f32 = 32 ∨ (Rect.block (s := S6144x6144) S768x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S6144x6144.size a
  hwx1_3 : ∀ i : grid1.Coords, EltTy.bits .f32 = 32 ∨ (Rect.block (s := S6144x6144) S768x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x6144.size a
  hwx1_4 : ∀ i : grid1.Coords, EltTy.bits .f32 = 32 ∨ (Rect.block (s := S1x6144) S1x768.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S768x768.size a ≤ S6144x6144.size a
  hwx2_0 : ∀ i : grid2.Coords, EltTy.bits .f32 = 32 ∨ (Rect.block (s := S6144x6144) S768x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x768.size a ≤ S1x6144.size a
  hwx2_1 : ∀ i : grid2.Coords, EltTy.bits .f32 = 32 ∨ (Rect.block (s := S1x6144) S1x768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S768x16.size a ≤ S6144x16.size a
  hwx2_2 : ∀ i : grid2.Coords, EltTy.bits .f32 = 32 ∨ (Rect.block (s := S6144x16) S768x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S768x16.size a ≤ S6144x16.size a
  hwx2_4 : ∀ i : grid2.Coords, EltTy.bits .f32 = 32 ∨ (Rect.block (s := S6144x16) S768x16.size (cc2_transform_4 i) (hinb2_4 i)).WholeWords (EltTy.packing .f32)

variable [Facts₀]

def dot_S6144x16_S16x1_S6144x1_1_0_0_1_n_n : DotDims S6144x16 S16x1 S6144x1 where
  lhsContracting := [1]
  rhsContracting := [0]
  lhsNonContracting := [0]
  rhsNonContracting := [1]
  lhsBatch := []
  rhsBatch := []
  wf := dot_S6144x16_S16x1_S6144x1_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf
def dot_S6144x16_S16x16_S6144x16_1_0_0_1_n_n : DotDims S6144x16 S16x16 S6144x16 where
  lhsContracting := [1]
  rhsContracting := [0]
  lhsNonContracting := [0]
  rhsNonContracting := [1]
  lhsBatch := []
  rhsBatch := []
  wf := dot_S6144x16_S16x16_S6144x16_1_0_0_1_n_n_wf
def dot_S2048x768_S2048x768_S768x768_0_0_1_1_n_n : DotDims S2048x768 S2048x768 S768x768 where
  lhsContracting := [0]
  rhsContracting := [0]
  lhsNonContracting := [1]
  rhsNonContracting := [1]
  lhsBatch := []
  rhsBatch := []
  wf := dot_S2048x768_S2048x768_S768x768_0_0_1_1_n_n_wf
def dot_S768x768_S768x16_S768x16_1_0_0_1_n_n : DotDims S768x768 S768x16 S768x16 where
  lhsContracting := [1]
  rhsContracting := [0]
  lhsNonContracting := [0]
  rhsNonContracting := [1]
  lhsBatch := []
  rhsBatch := []
  wf := dot_S768x768_S768x16_S768x16_1_0_0_1_n_n_wf

abbrev win0_0 : Pipeline.Window sig grid0 :=
  Pipeline.Window.ofSpec (Memref.whole main_arg4) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x6144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v13) S2048x6144.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S768x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_0) S768x768.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14_1) S1x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14_0) S768x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_1) S1x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S768x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S768x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S2048x128 : Shape := ⟨2, ![2048, 128]⟩
abbrev S6144x16 : Shape := ⟨2, ![6144, 16]⟩
abbrev S2048x2048 : Shape := ⟨2, ![2048, 2048]⟩
abbrev S6144x6144 : Shape := ⟨2, ![6144, 6144]⟩
abbrev S2048x6144 : Shape := ⟨2, ![2048, 6144]⟩
abbrev S128x64 : Shape := ⟨2, ![128, 64]⟩
abbrev S64 : Shape := ⟨1, ![64]⟩
abbrev S1x16 : Shape := ⟨2, ![1, 16]⟩
abbrev S16x16 : Shape := ⟨2, ![16, 16]⟩
abbrev S16 : Shape := ⟨1, ![16]⟩
abbrev S1x64 : Shape := ⟨2, ![1, 64]⟩
abbrev S16x1 : Shape := ⟨2, ![16, 1]⟩
abbrev S6144x1 : Shape := ⟨2, ![6144, 1]⟩
abbrev S6144 : Shape := ⟨1, ![6144]⟩
abbrev S1x6144 : Shape := ⟨2, ![1, 6144]⟩
abbrev S6144x2048 : Shape := ⟨2, ![6144, 2048]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S2048x64 : Shape := ⟨2, ![2048, 64]⟩
abbrev S64x1 : Shape := ⟨2, ![64, 1]⟩
abbrev S1x2048 : Shape := ⟨2, ![1, 2048]⟩
abbrev S6144x2 : Shape := ⟨2, ![6144, 2]⟩

abbrev nBuf : Space → Nat
  | .hbm => 89
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S6144x16, .f32⟩
  | .hbm, ⟨2, _⟩ => ⟨S2048x2048, .f32⟩
  | .hbm, ⟨3, _⟩ => ⟨S6144x6144, .f32⟩
  | .hbm, ⟨4, _⟩ => ⟨S2048x6144, .f32⟩
  | .hbm, ⟨5, _⟩ => ⟨S128x64, .f32⟩
  | .hbm, ⟨6, _⟩ => ⟨S64, .f32⟩
  | .hbm, ⟨7, _⟩ => ⟨S1x16, .f32⟩
  | .hbm, ⟨8, _⟩ => ⟨S16x16, .f32⟩
  | .hbm, ⟨9, _⟩ => ⟨S16, .f32⟩
  | .hbm, ⟨10, _⟩ => ⟨S1x64, .f32⟩
  | .hbm, ⟨11, _⟩ => ⟨S16x1, .f32⟩
  | .hbm, ⟨12, _⟩ => ⟨S6144x1, .f32⟩
  | .hbm, ⟨13, _⟩ => ⟨S6144, .f32⟩
  | .hbm, ⟨14, _⟩ => ⟨S1x6144, .f32⟩
  | .hbm, ⟨15, _⟩ => ⟨S2048x6144, .f32⟩
  | .hbm, ⟨16, _⟩ => ⟨S2048x6144, .f32⟩
  | .hbm, ⟨17, _⟩ => ⟨S6144x2048, .f32⟩
  | .hbm, ⟨18, _⟩ => ⟨S2048x2048, .f32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048x1, .i32⟩
  | .hbm, ⟨36, _⟩ => ⟨S2048x2, .i32⟩
  | .hbm, ⟨37, _⟩ => ⟨S_, .f32⟩
  | .hbm, ⟨38, _⟩ => ⟨S2048, .f32⟩
  | .hbm, ⟨39, _⟩ => ⟨S2048x2048, .f32⟩
  | .hbm, ⟨40, _⟩ => ⟨S2048x2048, .f32⟩
  | .hbm, ⟨41, _⟩ => ⟨S2048x64, .f32⟩
  | .hbm, ⟨42, _⟩ => ⟨S2048x64, .f32⟩
  | .hbm, ⟨43, _⟩ => ⟨S1x64, .f32⟩
  | .hbm, ⟨44, _⟩ => ⟨S2048x64, .f32⟩
  | .hbm, ⟨45, _⟩ => ⟨S2048x64, .f32⟩
  | .hbm, ⟨46, _⟩ => ⟨S64x1, .f32⟩
  | .hbm, ⟨47, _⟩ => ⟨S2048x1, .f32⟩
  | .hbm, ⟨48, _⟩ => ⟨S2048, .f32⟩
  | .hbm, ⟨49, _⟩ => ⟨S6144x2048, .f32⟩
  | .hbm, ⟨50, _⟩ => ⟨S1x2048, .f32⟩
  | .hbm, ⟨51, _⟩ => ⟨S6144x2048, .f32⟩
  | .hbm, ⟨52, _⟩ => ⟨S6144x2048, .f32⟩
  | .hbm, ⟨53, _⟩ => ⟨S6144x6144, .f32⟩
  | .hbm, ⟨54, _⟩ => ⟨S6144, .i32⟩
  | .hbm, ⟨55, _⟩ => ⟨S_, .i32⟩
  | .hbm, ⟨56, _⟩ => ⟨S6144, .i32⟩
  | .hbm, ⟨57, _⟩ => ⟨S6144, .i1⟩
  | .hbm, ⟨58, _⟩ => ⟨S_, .i32⟩
  | .hbm, ⟨59, _⟩ => ⟨S6144, .i32⟩
  | .hbm, ⟨60, _⟩ => ⟨S6144, .i32⟩
  | .hbm, ⟨61, _⟩ => ⟨S6144, .i32⟩
  | .hbm, ⟨62, _⟩ => ⟨S_, .i32⟩
  | .hbm, ⟨63, _⟩ => ⟨S6144, .i32⟩
  | .hbm, ⟨64, _⟩ => ⟨S6144, .i1⟩
  | .hbm, ⟨65, _⟩ => ⟨S_, .i32⟩
  | .hbm, ⟨66, _⟩ => ⟨S6144, .i32⟩
  | .hbm, ⟨67, _⟩ => ⟨S6144, .i32⟩
  | .hbm, ⟨68, _⟩ => ⟨S6144, .i32⟩
  | .hbm, ⟨69, _⟩ => ⟨S6144x1, .i32⟩
  | .hbm, ⟨70, _⟩ => ⟨S6144x1, .i32⟩
  | .hbm, ⟨71, _⟩ => ⟨S6144x2, .i32⟩
  | .hbm, ⟨72, _⟩ => ⟨S_, .f32⟩
  | .hbm, ⟨73, _⟩ => ⟨S6144, .f32⟩
  | .hbm, ⟨74, _⟩ => ⟨S6144x6144, .f32⟩
  | .hbm, ⟨75, _⟩ => ⟨S6144x6144, .f32⟩
  | .hbm, ⟨76, _⟩ => ⟨S_, .f32⟩
  | .hbm, ⟨77, _⟩ => ⟨S6144, .f32⟩
  | .hbm, ⟨78, _⟩ => ⟨S1x6144, .f32⟩
  | .hbm, ⟨79, _⟩ => ⟨S_, .f32⟩
  | .hbm, ⟨80, _⟩ => ⟨S1x6144, .f32⟩
  | .hbm, ⟨81, _⟩ => ⟨S1x6144, .f32⟩
  | .hbm, ⟨82, _⟩ => ⟨S6144x6144, .f32⟩
  | .hbm, ⟨83, _⟩ => ⟨S6144x6144, .f32⟩
  | .hbm, ⟨84, _⟩ => ⟨S6144x16, .f32⟩
  | .hbm, ⟨85, _⟩ => ⟨S6144x16, .f32⟩
  | .hbm, ⟨86, _⟩ => ⟨S1x16, .f32⟩
  | .hbm, ⟨87, _⟩ => ⟨S6144x16, .f32⟩
  | .hbm, ⟨88, _⟩ => ⟨S6144x16, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_3 : Ref sig .tc := ⟨.hbm, 55, rfl⟩
abbrev main_v39 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_c_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]

class Facts₀ : Prop where
  transposes_S1x16_S16x1_1_0 : S1x16.Transposes [1, 0] S16x1
  shapeCasts_S6144x1_S6144 : S6144x1.ShapeCasts S6144
  bcast_S6144_S1x6144_1 : S6144.BroadcastsInDim S1x6144 (![1] : Fin 1 → Fin S1x6144.rank)
  bcast_S1x6144_S2048x6144_0_1 : S1x6144.BroadcastsInDim S2048x6144 (![0, 1] : Fin 2 → Fin S2048x6144.rank)
  transposes_S2048x6144_S6144x2048_1_0 : S2048x6144.Transposes [1, 0] S6144x2048
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S1x64_S64x1_1_0 : S1x64.Transposes [1, 0] S64x1
  shapeCasts_S2048x1_S2048 : S2048x1.ShapeCasts S2048
  bcast_S2048_S1x2048_1 : S2048.BroadcastsInDim S1x2048 (![1] : Fin 1 → Fin S1x2048.rank)
  bcast_S1x2048_S6144x2048_0_1 : S1x2048.BroadcastsInDim S6144x2048 (![0, 1] : Fin 2 → Fin S6144x2048.rank)
  bcast_S_S6144 : S_.BroadcastsInDim S6144 (![] : Fin 0 → Fin S6144.rank)
  bcast_S6144_S6144x1_0 : S6144.BroadcastsInDim S6144x1 (![0] : Fin 1 → Fin S6144x1.rank)
  concatenates_S6144x1_S6144x1_S6144x2_d1 : Shape.Concatenates [S6144x1, S6144x1] S6144x2 1
  reducesTo_S6144x6144_S6144_d0 : S6144x6144.ReducesTo [0] S6144
  h_S_ : 0 < S_.numel
  bcast_S_S1x6144 : S_.BroadcastsInDim S1x6144 (![] : Fin 0 → Fin S1x6144.rank)
  bcast_S1x6144_S6144x6144_0_1 : S1x6144.BroadcastsInDim S6144x6144 (![0, 1] : Fin 2 → Fin S6144x6144.rank)
  bcast_S16_S1x16_1 : S16.BroadcastsInDim S1x16 (![1] : Fin 1 → Fin S1x16.rank)
  bcast_S1x16_S6144x16_0_1 : S1x16.BroadcastsInDim S6144x16 (![0, 1] : Fin 2 → Fin S6144x16.rank)
  dot_S6144x16_S16x1_S6144x1_1_0_0_1_n_n_wf : DotDims.WF S6144x16 S16x1 S6144x1 [1] [0] [0] [1] [] []
  dot_S2048x6144_S6144x2048_S2048x2048_1_0_0_1_n_n_wf : DotDims.WF S2048x6144 S6144x2048 S2048x2048 [1] [0] [0] [1] [] []
  scatter_S2048x2048_S2048x2_S2048_n_01_01_1_wf : ScatterDims.WF S2048x2048 S2048x2 S2048 [] [0, 1] [0, 1] 1
  dot_S2048x128_S128x64_S2048x64_1_0_0_1_n_n_wf : DotDims.WF S2048x128 S128x64 S2048x64 [1] [0] [0] [1] [] []
  dot_S2048x2048_S2048x64_S2048x64_1_0_0_1_n_n_wf : DotDims.WF S2048x2048 S2048x64 S2048x64 [1] [0] [0] [1] [] []
  dot_S2048x64_S64x1_S2048x1_1_0_0_1_n_n_wf : DotDims.WF S2048x64 S64x1 S2048x1 [1] [0] [0] [1] [] []
  dot_S6144x2048_S2048x6144_S6144x6144_1_0_0_1_n_n_wf : DotDims.WF S6144x2048 S2048x6144 S6144x6144 [1] [0] [0] [1] [] []
  scatter_S6144x6144_S6144x2_S6144_n_01_01_1_wf : ScatterDims.WF S6144x6144 S6144x2 S6144 [] [0, 1] [0, 1] 1
  dot_S6144x16_S16x16_S6144x16_1_0_0_1_n_n_wf : DotDims.WF S6144x16 S16x16 S6144x16 [1] [0] [0] [1] [] []
  dot_S6144x6144_S6144x16_S6144x16_1_0_0_1_n_n_wf : DotDims.WF S6144x6144 S6144x16 S6144x16 [1] [0] [0] [1] [] []

variable [Facts₀]

def dot_S6144x16_S16x1_S6144x1_1_0_0_1_n_n : DotDims S6144x16 S16x1 S6144x1 where
  lhsContracting := [1]
  rhsContracting := [0]
  lhsNonContracting := [0]
  rhsNonContracting := [1]
  lhsBatch := []
  rhsBatch := []
  wf := dot_S6144x16_S16x1_S6144x1_1_0_0_1_n_n_wf
def dot_S2048x6144_S6144x2048_S2048x2048_1_0_0_1_n_n : DotDims S2048x6144 S6144x2048 S2048x2048 where
  lhsContracting := [1]
  rhsContracting := [0]
  lhsNonContracting := [0]
  rhsNonContracting := [1]
  lhsBatch := []
  rhsBatch := []
  wf := dot_S2048x6144_S6144x2048_S2048x2048_1_0_0_1_n_n_wf
def scatter_S2048x2048_S2048x2_S2048_n_01_01_1 : ScatterDims S2048x2048 S2048x2 S2048 where
  updateWindowDims := []
  insertedWindowDims := [0, 1]
  scatterDimsToOperandDims := [0, 1]
  indexVectorDim := 1
  wf := scatter_S2048x2048_S2048x2_S2048_n_01_01_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf
def dot_S6144x2048_S2048x6144_S6144x6144_1_0_0_1_n_n : DotDims S6144x2048 S2048x6144 S6144x6144 where
  lhsContracting := [1]
  rhsContracting := [0]
  lhsNonContracting := [0]
  rhsNonContracting := [1]
  lhsBatch := []
  rhsBatch := []
  wf := dot_S6144x2048_S2048x6144_S6144x6144_1_0_0_1_n_n_wf
def scatter_S6144x6144_S6144x2_S6144_n_01_01_1 : ScatterDims S6144x6144 S6144x2 S6144 where
  updateWindowDims := []
  insertedWindowDims := [0, 1]
  scatterDimsToOperandDims := [0, 1]
  indexVectorDim := 1
  wf := scatter_S6144x6144_S6144x2_S6144_n_01_01_1_wf
def dot_S6144x16_S16x16_S6144x16_1_0_0_1_n_n : DotDims S6144x16 S16x16 S6144x16 where
  lhsContracting := [1]
  rhsContracting := [0]
  lhsNonContracting := [0]
  rhsNonContracting := [1]
  lhsBatch := []
  rhsBatch := []
  wf := dot_S6144x16_S16x16_S6144x16_1_0_0_1_n_n_wf
def dot_S6144x6144_S6144x16_S6144x16_1_0_0_1_n_n : DotDims S6144x6144 S6144x16 S6144x16 where
  lhsContracting := [1]
  rhsContracting := [0]
  lhsNonContracting := [0]
  rhsNonContracting := [1]
  lhsBatch := []
  rhsBatch := []
  wf := dot_S6144x6144_S6144x16_S6144x16_1_0_0_1_n_n_wf

class Facts : Prop extends Facts₀ where

variable [Facts]
-- ==== Proof.KI.R0Runs.lean ====
import proofs.«158961_j3762391351854_1_alg».proof.Proof.Gen.KernelIdeal.Launch
import proofs.«158961_j3762391351854_1_alg».proof.Proof.Gen.KernelIdeal.Skeleton
import proofs.«158961_j3762391351854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

abbrev VO0_5 : View sig .tc .vmem S2048x64 .f32 := (Memref.whole cc0_stg5_0 : Memref sig .tc .vmem S2048x64 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x64 .f32 := win0_5.stage (cfg0.slots t 5)
abbrev hs0_5 (t : Fin cfg0.N) : (ms0_5 t).IsWhole := hstage0_5 ((cfg0.slots t 5).cast nbuf0_5)
abbrev scM0_0 : Memref sig .tc .vmem S2048x2048 .f32 := Memref.whole cc0_scratch0
abbrev VS0_0 : View sig .tc .vmem S2048x2048 .f32 := scM0_0.view

def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

end Cert.KernelIdeal.Fr

end
-- ==== Proof.KI.R0RunA.lean ====
import proofs.«158961_j3762391351854_1_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2048x512 .f32) (harg1 : arg1.IsWhole) (arg2 : Memref sig .tc .vmem S1x6144 .f32) (harg2 : arg2.IsWhole) (arg3 : Memref sig .tc .vmem S2048x2048 .f32) (harg3 : arg3.IsWhole) (arg4 : Memref sig .tc .vmem S2048x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x2048 .f32) (harg7 : arg7.IsWhole) (hc0 : cond0_0 i) (hc1 : ¬cond0_1 i)
    (x0 : Vec F S2048x512 .f32) (x1 : Vec F S1x6144 .f32) (x2 : Vec F S2048x2048 .f32) (x3 : Vec F S2048x64 .f32) (x4 : Vec F S1x64 .f32) :
    Σ' (L5 : List (View.Piece (Elt F) S2048x64 .f32)), { LS0 : List (View.Piece (Elt F) S2048x2048 .f32) //
      ∀ (xi5 : Vec F S2048x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__node_kernel i arg1 harg1 arg2 harg2 arg3 harg3 arg4 harg4 arg5 harg5 arg6 harg6 arg7 harg7) K } := by
  refine ⟨[], ?_, fun xi5 E K => ?run⟩
  case run =>
    simp only [cc0__node_kernel_eq_skeleton]; unfold cc0__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.KI.R0RunB.lean ====
import proofs.«158961_j3762391351854_1_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2048x512 .f32) (harg1 : arg1.IsWhole) (arg2 : Memref sig .tc .vmem S1x6144 .f32) (harg2 : arg2.IsWhole) (arg3 : Memref sig .tc .vmem S2048x2048 .f32) (harg3 : arg3.IsWhole) (arg4 : Memref sig .tc .vmem S2048x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x2048 .f32) (harg7 : arg7.IsWhole) (hc0 : ¬cond0_0 i) (hc1 : ¬cond0_1 i)
    (x0 : Vec F S2048x512 .f32) (x1 : Vec F S1x6144 .f32) (x2 : Vec F S2048x2048 .f32) (x3 : Vec F S2048x64 .f32) (x4 : Vec F S1x64 .f32) (xs0 : Vec F S2048x2048 .f32) :
    Σ' (L5 : List (View.Piece (Elt F) S2048x64 .f32)), { LS0 : List (View.Piece (Elt F) S2048x2048 .f32) //
      ∀ (xi5 : Vec F S2048x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__node_kernel i arg1 harg1 arg2 harg2 arg3 harg3 arg4 harg4 arg5 harg5 arg6 harg6 arg7 harg7) K } := by
  refine ⟨[], ?_, fun xi5 E K => ?run⟩
  case run =>
    simp only [cc0__node_kernel_eq_skeleton]; unfold cc0__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.KI.R0RunC.lean ====
import proofs.«158961_j3762391351854_1_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2048x512 .f32) (harg1 : arg1.IsWhole) (arg2 : Memref sig .tc .vmem S1x6144 .f32) (harg2 : arg2.IsWhole) (arg3 : Memref sig .tc .vmem S2048x2048 .f32) (harg3 : arg3.IsWhole) (arg4 : Memref sig .tc .vmem S2048x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x2048 .f32) (harg7 : arg7.IsWhole) (hc0 : ¬cond0_0 i) (hc1 : cond0_1 i)
    (x0 : Vec F S2048x512 .f32) (x1 : Vec F S1x6144 .f32) (x2 : Vec F S2048x2048 .f32) (x3 : Vec F S2048x64 .f32) (x4 : Vec F S1x64 .f32) (xs0 : Vec F S2048x2048 .f32) :
    Σ' (L5 : List (View.Piece (Elt F) S2048x64 .f32)), { LS0 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__node_kernel i arg1 harg1 arg2 harg2 arg3 harg3 arg4 harg4 arg5 harg5 arg6 harg6 arg7 harg7) K } := by
  refine ⟨?_, ?_, fun E K => ?run⟩
  case run =>
    simp only [cc0__node_kernel_eq_skeleton]; unfold cc0__node_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Fr

end
-- ==== Proof.KI.R0.lean ====
import proofs.«158961_j3762391351854_1_alg».proof.Proof.KI.R0RunA
import proofs.«158961_j3762391351854_1_alg».proof.Proof.KI.R0RunB
import proofs.«158961_j3762391351854_1_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg1 : Memref sig .tc .vmem S2048x512 .f32) (harg1 : arg1.IsWhole) (arg2 : Memref sig .tc .vmem S1x6144 .f32) (harg2 : arg2.IsWhole) (arg3 : Memref sig .tc .vmem S2048x2048 .f32) (harg3 : arg3.IsWhole) (arg4 : Memref sig .tc .vmem S2048x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x2048 .f32) (harg7 : arg7.IsWhole)

section
variable (hc0 : cond0_0 i) (hc1 : ¬cond0_1 i) (x0 : Vec F S2048x512 .f32) (x1 : Vec F S1x6144 .f32) (x2 : Vec F S2048x2048 .f32) (x3 : Vec F S2048x64 .f32) (x4 : Vec F S1x64 .f32)
def out0_A_5 : Vec F S2048x64 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

theorem scover0_A_0 (y : S2048x2048.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S2048x2048.size (by sl_kernel_rfl) y

def sout0_A_0 : Vec F S2048x2048 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)
end

section
variable (hc0 : ¬cond0_0 i) (hc1 : ¬cond0_1 i) (x0 : Vec F S2048x512 .f32) (x1 : Vec F S1x6144 .f32) (x2 : Vec F S2048x2048 .f32) (x3 : Vec F S2048x64 .f32) (x4 : Vec F S1x64 .f32) (xs0 : Vec F S2048x2048 .f32)
def out0_B_5 : Vec F S2048x64 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

theorem scover0_B_0 (y : S2048x2048.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S2048x2048.size (by sl_kernel_rfl) y

def sout0_B_0 : Vec F S2048x2048 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)
end

section
variable (hc0 : ¬cond0_0 i) (hc1 : cond0_1 i) (x0 : Vec F S2048x512 .f32) (x1 : Vec F S1x6144 .f32) (x2 : Vec F S2048x2048 .f32) (x3 : Vec F S2048x64 .f32) (x4 : Vec F S1x64 .f32) (xs0 : Vec F S2048x2048 .f32)
theorem cover0_C_5 (y : S2048x64.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S2048x64.size (by sl_kernel_rfl) y

def out0_C_5 : Vec F S2048x64 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

theorem scover0_C_0 (y : S2048x2048.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S2048x2048.size (by sl_kernel_rfl) y

def sout0_C_0 : Vec F S2048x2048 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)
end
end

def outsAt0 (c : Dev nD) : (n : ℕ) → n < cfg0.N → Vec F S2048x64 .f32 × Vec F S2048x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 12 = 0 then
      if h1 : (n + 1) % 12 = 11 then
        False.elim (by have hN : n + 1 < 12 := lt_of_lt_of_eq hn (show cfg0.N = 12 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 12 = 11 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 12 = 0) (h1 : ¬t.val % 12 = 11) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 12 = 0) (h1 : ¬t.val % 12 = 11) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 12 = 0) (h1 : t.val % 12 = 11) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by dsimp only [dat0]
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 12 := lt_of_lt_of_eq t.isLt (show cfg0.N = 12 from N_0)
  by_cases h0 : t.val % 12 = 0
  · by_cases h1 : t.val % 12 = 11
    · exfalso; omega
    ·
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      have hz : t.val = 0 := by omega
      rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      iframe H0 H1 H2 H3 H4 H5 HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _)
          iexact HR
        iexact Hg
      iframe Ho H0 H1 H2 H3 H4
      iexists _; iexact H5

  · have hz : t.val ≠ 0 := by omega
    by_cases h1 : t.val % 12 = 11
    ·
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      iframe H0 H1 H2 H3 H4 HS0
      isplitl [H5]; · iexists _; iexact H5
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 _ _ _ _ _ _ _ _ _ _ _ _ _ _ _ _ _ _ _ _ _ _ _ _)
          iexact HR
        iexact Hg
      iframe Ho H0 H1 H2 H3 H4
      unfold owns; iexists _; isplitr
      swap; · iexact H5
      ipureintro; exact View.read_writes_of_cover _ _ _ _ _ (cover0_C_5 _ _ _ _ _ _ _ _ _ _ _ _ _ _ _ _ _ _ _ _ _ _ _ _)

    ·
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      iframe H0 H1 H2 H3 H4 H5 HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 _ _ _ _ _ _ _ _ _ _ _ _ _ _ _ _ _ _ _ _ _ _ _ _)
          iexact HR
        iexact Hg
      iframe Ho H0 H1 H2 H3 H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 12 := N_0; omega)

end Cert.KernelIdeal.Fr

end
-- ==== Proof.KI.R1Runs.lean ====
import proofs.«158961_j3762391351854_1_alg».proof.Proof.Gen.KernelIdeal.Launch
import proofs.«158961_j3762391351854_1_alg».proof.Proof.Gen.KernelIdeal.Skeleton
import proofs.«158961_j3762391351854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev VO1_3 : View sig .tc .vmem S768x768 .f32 := (Memref.whole cc1_stg3_0 : Memref sig .tc .vmem S768x768 .f32).view
abbrev VO1_4 : View sig .tc .vmem S1x768 .f32 := (Memref.whole cc1_stg4_0 : Memref sig .tc .vmem S1x768 .f32).view
abbrev ms1_0 (t : Fin cfg1.N) : Memref sig .tc .vmem S2048x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S768x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x768 .f32 := win1_4.stage (cfg1.slots t 4)
abbrev hs1_4 (t : Fin cfg1.N) : (ms1_4 t).IsWhole := hstage1_4 ((cfg1.slots t 4).cast nbuf1_4)

end Cert.KernelIdeal.Fr

end
-- ==== Proof.KI.R1RunA.lean ====
import proofs.«158961_j3762391351854_1_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x6144 .bf16) (harg2 : arg2.IsWhole) (arg3 : Memref sig .tc .vmem S2048x1 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S1x768 .f32) (harg6 : arg6.IsWhole) (hc0 : cond1_0 i)
    (x0 : Vec F S2048x6144 .bf16) (x1 : Vec F S2048x1 .f32) (x2 : Vec F S768x768 .f32) :
    Σ' (L3 : List (View.Piece (Elt F) S768x768 .f32)), { L4 : List (View.Piece (Elt F) S1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc1__edge_mask_kernel i arg2 harg2 arg3 harg3 arg4 harg4 arg5 harg5 arg6 harg6) K } := by
  refine ⟨?_, ?_, fun E K => ?run⟩
  case run =>
    simp only [cc1__edge_mask_kernel_eq_skeleton]; unfold cc1__edge_mask_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Fr

end
-- ==== Proof.KI.R1RunB.lean ====
import proofs.«158961_j3762391351854_1_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x6144 .bf16) (harg2 : arg2.IsWhole) (arg3 : Memref sig .tc .vmem S2048x1 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S1x768 .f32) (harg6 : arg6.IsWhole) (hc0 : ¬cond1_0 i)
    (x0 : Vec F S2048x6144 .bf16) (x1 : Vec F S2048x1 .f32) (x2 : Vec F S768x768 .f32) (xo4 : Vec F S1x768 .f32) :
    Σ' (L3 : List (View.Piece (Elt F) S768x768 .f32)), { L4 : List (View.Piece (Elt F) S1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc1__edge_mask_kernel i arg2 harg2 arg3 harg3 arg4 harg4 arg5 harg5 arg6 harg6) K } := by
  refine ⟨?_, ?_, fun E K => ?run⟩
  case run =>
    simp only [cc1__edge_mask_kernel_eq_skeleton]; unfold cc1__edge_mask_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Fr

end
-- ==== Proof.KI.R1.lean ====
import proofs.«158961_j3762391351854_1_alg».proof.Proof.KI.R1RunA
import proofs.«158961_j3762391351854_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S2048x6144 .bf16) (harg2 : arg2.IsWhole) (arg3 : Memref sig .tc .vmem S2048x1 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S1x768 .f32) (harg6 : arg6.IsWhole)

section
variable (hc0 : cond1_0 i) (x0 : Vec F S2048x6144 .bf16) (x1 : Vec F S2048x1 .f32) (x2 : Vec F S768x768 .f32)
theorem cover1_A_3 (y : S768x768.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S768x768.size (by sl_kernel_rfl) y

def out1_A_3 : Vec F S768x768 .f32 :=
  VO1_3.read (Elt F) (VO1_3.writes (Elt F) VO1_3.junk (kernelRun1_A c i arg2 harg2 arg3 harg3 arg4 harg4 arg5 harg5 arg6 harg6 hc0 x0 x1 x2).1)

theorem cover1_A_4 (y : S1x768.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S1x768.size (by sl_kernel_rfl) y

def out1_A_4 : Vec F S1x768 .f32 :=
  VO1_4.read (Elt F) (VO1_4.writes (Elt F) VO1_4.junk (kernelRun1_A c i arg2 harg2 arg3 harg3 arg4 harg4 arg5 harg5 arg6 harg6 hc0 x0 x1 x2).2.1)
end

section
variable (hc0 : ¬cond1_0 i) (x0 : Vec F S2048x6144 .bf16) (x1 : Vec F S2048x1 .f32) (x2 : Vec F S768x768 .f32) (xo4 : Vec F S1x768 .f32)
theorem cover1_B_3 (y : S768x768.Idx) :
    ∃ pc ∈ (kernelRun1_B c i arg2 harg2 arg3 harg3 arg4 harg4 arg5 harg5 arg6 harg6 hc0 x0 x1 x2 xo4).1, y ∈ pc.1.set :=
  View.cover_of_tiledL (kernelRun1_B c i arg2 harg2 arg3 harg3 arg4 harg4 arg5 harg5 arg6 harg6 hc0 x0 x1 x2 xo4).1 S768x768.size (by sl_kernel_rfl) y

def out1_B_3 : Vec F S768x768 .f32 :=
  VO1_3.read (Elt F) (VO1_3.writes (Elt F) VO1_3.junk (kernelRun1_B c i arg2 harg2 arg3 harg3 arg4 harg4 arg5 harg5 arg6 harg6 hc0 x0 x1 x2 xo4).1)

theorem cover1_B_4 (y : S1x768.Idx) :
    ∃ pc ∈ (kernelRun1_B c i arg2 harg2 arg3 harg3 arg4 harg4 arg5 harg5 arg6 harg6 hc0 x0 x1 x2 xo4).2.1, y ∈ pc.1.set :=
  View.cover_of_tiledL (kernelRun1_B c i arg2 harg2 arg3 harg3 arg4 harg4 arg5 harg5 arg6 harg6 hc0 x0 x1 x2 xo4).2.1 S1x768.size (by sl_kernel_rfl) y

def out1_B_4 : Vec F S1x768 .f32 :=
  VO1_4.read (Elt F) (VO1_4.writes (Elt F) VO1_4.junk (kernelRun1_B c i arg2 harg2 arg3 harg3 arg4 harg4 arg5 harg5 arg6 harg6 hc0 x0 x1 x2 xo4).2.1)
end
end

def outsAt1 (c : Dev nD) : (n : ℕ) → n < cfg1.N → Vec F S768x768 .f32 × Vec F S1x768 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 8 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).2, out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
theorem recorded_eq1 (c : Dev nD) (t : Fin (cfg1.N + 1)) : (dat1 V c).recorded t = Set.univ := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_4_B (c : Dev nD) (t : Fin cfg1.N) (h0 : ¬t.val % 8 = 0) (d) :
    (dat1 V c).before 4 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt_of_lt_of_eq t.isLt (show cfg1.N = 64 from N_1)
  by_cases h0 : t.val % 8 = 0
  · rw [outsAt1_A V c t h0]
    unfold out1_A_3 out1_A_4; (try dsimp only)
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t)).2.2 Set.univ _)
    iframe H0 H1 H2
    isplitl [H3]; · iexists _; iexact H3
    isplitl [H4]; · iexists _; iexact H4
    iintro ⟨H0, H1, H2, ⟨%e3, H3⟩, ⟨%e4, H4⟩⟩
    iframe HΦ Ho H0 H1 H2
    isplitl [H3]
    · unfold owns; iexists _; isplitr
      swap; · iexact H3
      ipureintro; exact View.read_writes_of_cover _ _ _ _ _ (cover1_A_3 c _ _ _ _ _ _ _ _ _ _ _ _ _ _ _)
    unfold owns; iexists _; isplitr
    swap; · iexact H4
    ipureintro; exact View.read_writes_of_cover _ _ _ _ _ (cover1_A_4 c _ _ _ _ _ _ _ _ _ _ _ _ _ _ _)
  · rw [outsAt1_B V c t h0]
    simp only [before1_4_B V c t h0]
    unfold out1_B_3 out1_B_4; (try dsimp only)
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) _).2.2 Set.univ _)
    iframe H0 H1 H2 H4
    isplitl [H3]; · iexists _; iexact H3
    iintro ⟨H0, H1, H2, ⟨%e3, H3⟩, ⟨%e4, H4⟩⟩
    iframe HΦ Ho H0 H1 H2
    isplitl [H3]
    · unfold owns; iexists _; isplitr
      swap; · iexact H3
      ipureintro; exact View.read_writes_of_cover _ _ _ _ _ (cover1_B_3 c _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Pipeline.ΦA spec1 c from rfl]
theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]

end Cert.KernelIdeal.Fr

end
-- ==== Proof.KI.R2Runs.lean ====
import proofs.«158961_j3762391351854_1_alg».proof.Proof.Gen.KernelIdeal.Launch
import proofs.«158961_j3762391351854_1_alg».proof.Proof.Gen.KernelIdeal.Skeleton
import proofs.«158961_j3762391351854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Region2

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

abbrev VO2_4 : View sig .tc .vmem S768x16 .f32 := (Memref.whole cc2_stg4_0 : Memref sig .tc .vmem S768x16 .f32).view
abbrev ms2_0 (t : Fin cfg2.N) : Memref sig .tc .vmem S768x768 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x768 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S768x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S768x16 .f32 := win2_4.stage (cfg2.slots t 4)
abbrev hs2_4 (t : Fin cfg2.N) : (ms2_4 t).IsWhole := hstage2_4 ((cfg2.slots t 4).cast nbuf2_4)
abbrev scM2_0 : Memref sig .tc .vmem S768x16 .f32 := Memref.whole cc2_scratch0
abbrev VS2_0 : View sig .tc .vmem S768x16 .f32 := scM2_0.view

theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2_0, owns_whole]; try rfl

end Cert.KernelIdeal.Fr

end
-- ==== Proof.KI.R2RunA.lean ====
import proofs.«158961_j3762391351854_1_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S768x768 .f32) (harg2 : arg2.IsWhole) (arg3 : Memref sig .tc .vmem S1x768 .f32) (harg3 : arg3.IsWhole) (arg4 : Memref sig .tc .vmem S768x16 .f32) (harg4 : arg4.IsWhole) (arg5 : Memref sig .tc .vmem S1x16 .f32) (harg5 : arg5.IsWhole) (arg6 : Memref sig .tc .vmem S768x16 .f32) (harg6 : arg6.IsWhole) (arg7 : Memref sig .tc .vmem S768x16 .f32) (harg7 : arg7.IsWhole) (hc0 : cond2_0 i) (hc1 : ¬cond2_1 i)
    (x0 : Vec F S768x768 .f32) (x1 : Vec F S1x768 .f32) (x2 : Vec F S768x16 .f32) (x3 : Vec F S1x16 .f32) :
    Σ' (L4 : List (View.Piece (Elt F) S768x16 .f32)), { LS0 : List (View.Piece (Elt F) S768x16 .f32) //
      ∀ (xi4 : Vec F S768x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__edge_final_kernel i arg2 harg2 arg3 harg3 arg4 harg4 arg5 harg5 arg6 harg6 arg7 harg7) K } := by
  refine ⟨[], ?_, fun xi4 E K => ?run⟩
  case run =>
    simp only [cc2__edge_final_kernel_eq_skeleton]; unfold cc2__edge_final_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R2RunB.lean ====
import proofs.«158961_j3762391351854_1_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg2 : Memref sig .tc .vmem S768x768 .f32) (harg2 : arg2.IsWhole) (arg3 : Memref sig .tc .vmem S1x768 .f32) (harg3 : arg3.IsWhole) (arg4 : Memref sig .tc .vmem S768x16 .f32) (harg4 : arg4.IsWhole) (arg5 : Memref sig .tc .vmem S1x16 .f32) (harg5 : arg5.IsWhole) (arg6 : Memref sig .tc .vmem S768x16 .f32) (harg6 : arg6.IsWhole) (arg7 : Memref sig .tc .vmem S768x16 .f32) (harg7 : arg7.IsWhole) (hc0 : ¬cond2_0 i) (hc1 : ¬cond2_1 i)
    (x0 : Vec F S768x768 .f32) (x1 : Vec F S1x768 .f32) (x2 : Vec F S768x16 .f32) (x3 : Vec F S1x16 .f32) (xs0 : Vec F S768x16 .f32) :
    Σ' (L4 : List (View.Piece (Elt F) S768x16 .f32)), { LS0 : List (View.Piece (Elt F) S768x16 .f32) //
      ∀ (xi4 : Vec F S768x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__edge_final_kernel i arg2 harg2 arg3 harg3 arg4 harg4 arg5 harg5 arg6 harg6 arg7 harg7) K } := by
  refine ⟨[], ?_, fun xi4 E K => ?run⟩
  case run =>
    simp only [cc2__edge_final_kernel_eq_skeleton]; unfold cc2__edge_final_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R2RunC.lean ====
import proofs.«158961_j3762391351854_1_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S768x768 .f32) (harg2 : arg2.IsWhole) (arg3 : Memref sig .tc .vmem S1x768 .f32) (harg3 : arg3.IsWhole) (arg4 : Memref sig .tc .vmem S768x16 .f32) (harg4 : arg4.IsWhole) (arg5 : Memref sig .tc .vmem S1x16 .f32) (harg5 : arg5.IsWhole) (arg6 : Memref sig .tc .vmem S768x16 .f32) (harg6 : arg6.IsWhole) (arg7 : Memref sig .tc .vmem S768x16 .f32) (harg7 : arg7.IsWhole) (hc0 : ¬cond2_0 i) (hc1 : cond2_1 i)
    (x0 : Vec F S768x768 .f32) (x1 : Vec F S1x768 .f32) (x2 : Vec F S768x16 .f32) (x3 : Vec F S1x16 .f32) (xs0 : Vec F S768x16 .f32) :
    Σ' (L4 : List (View.Piece (Elt F) S768x16 .f32)), { LS0 : List (View.Piece (Elt F) S768x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__edge_final_kernel i arg2 harg2 arg3 harg3 arg4 harg4 arg5 harg5 arg6 harg6 arg7 harg7) K } := by
  refine ⟨?_, ?_, fun E K => ?run⟩
  case run =>
    simp only [cc2__edge_final_kernel_eq_skeleton]; unfold cc2__edge_final_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KI.R2.lean ====
import proofs.«158961_j3762391351854_1_alg».proof.Proof.KI.R2RunA
import proofs.«158961_j3762391351854_1_alg».proof.Proof.KI.R2RunB
import proofs.«158961_j3762391351854_1_alg».proof.Proof.KI.R2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid2.Coords) (arg2 : Memref sig .tc .vmem S768x768 .f32) (harg2 : arg2.IsWhole) (arg3 : Memref sig .tc .vmem S1x768 .f32) (harg3 : arg3.IsWhole) (arg4 : Memref sig .tc .vmem S768x16 .f32) (harg4 : arg4.IsWhole) (arg5 : Memref sig .tc .vmem S1x16 .f32) (harg5 : arg5.IsWhole) (arg6 : Memref sig .tc .vmem S768x16 .f32) (harg6 : arg6.IsWhole) (arg7 : Memref sig .tc .vmem S768x16 .f32) (harg7 : arg7.IsWhole)

section
variable (hc0 : cond2_0 i) (hc1 : ¬cond2_1 i) (x0 : Vec F S768x768 .f32) (x1 : Vec F S1x768 .f32) (x2 : Vec F S768x16 .f32) (x3 : Vec F S1x16 .f32)
def out2_A_4 : Vec F S768x16 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

theorem scover2_A_0 (y : S768x16.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S768x16.size (by sl_kernel_rfl) y

def sout2_A_0 : Vec F S768x16 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)
end

section
variable (hc0 : ¬cond2_0 i) (hc1 : ¬cond2_1 i) (x0 : Vec F S768x768 .f32) (x1 : Vec F S1x768 .f32) (x2 : Vec F S768x16 .f32) (x3 : Vec F S1x16 .f32) (xs0 : Vec F S768x16 .f32)
def out2_B_4 : Vec F S768x16 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

theorem scover2_B_0 (y : S768x16.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S768x16.size (by sl_kernel_rfl) y

def sout2_B_0 : Vec F S768x16 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)
end

section
variable (hc0 : ¬cond2_0 i) (hc1 : cond2_1 i) (x0 : Vec F S768x768 .f32) (x1 : Vec F S1x768 .f32) (x2 : Vec F S768x16 .f32) (x3 : Vec F S1x16 .f32) (xs0 : Vec F S768x16 .f32)
theorem cover2_C_4 (y : S768x16.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S768x16.size (by sl_kernel_rfl) y

def out2_C_4 : Vec F S768x16 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

theorem scover2_C_0 (y : S768x16.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S768x16.size (by sl_kernel_rfl) y

def sout2_C_0 : Vec F S768x16 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)
end
end

variable (V : (c : Dev nD) → (b : Ref sig .tc) → Buf (Elt F) ((c : Thread nD τ).loc b))

def outsAt2 (c : Dev nD) : (n : ℕ) → n < cfg2.N → Vec F S768x16 .f32 × Vec F S768x16 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 64 := lt_of_lt_of_eq t.isLt (show cfg2.N = 64 from N_2)
  by_cases h0 : t.val % 8 = 0
  · by_cases h1 : t.val % 8 = 7
    · exfalso; omega
    ·
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        iframe H0 H1 H2 H3 H4 HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        iframe Ho H0 H1 H2 H3
        iexists _; iexact H4
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        iframe H0 H1 H2 H3 H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        iframe Ho H0 H1 H2 H3
        iexists _; iexact H4
  · by_cases h1 : t.val % 8 = 7
    ·
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        iframe H0 H1 H2 H3 HS0
        isplitl [H4]; · iexists _; iexact H4
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact Hr
          iexact Hg
        iframe Ho H0 H1 H2 H3
        unfold owns; iexists _; isplitr
        swap; · iexact H4
        ipureintro; exact View.read_writes_of_cover _ _ _ _ _ (cover2_C_4 c _ _ _ _ _ _ _ _ _ _ _ _ _ _ _ _ _ _ _ _)
    ·
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        iframe H0 H1 H2 H3 H4 HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact Hr
          iexact Hg
        iframe Ho H0 H1 H2 H3
        iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

theorem hout2 (c : Dev nD) : (dat2 V c).Φ (Fin.last cfg2.N) ⊢ (Pipeline.ΦA spec2 c : sProp 𝕄) :=
  Phi_out2 V c _ (by rw [Fin.val_last]; have : cfg2.N = 64 := N_2; omega)

end Cert.KernelIdeal.Fr

end
-- ==== Proof.KI.Run.lean ====
import proofs.«158961_j3762391351854_1_alg».proof.Proof.KI.R0
import proofs.«158961_j3762391351854_1_alg».proof.Proof.KI.R1
import proofs.«158961_j3762391351854_1_alg».proof.Proof.KI.R2
import proofs.«158961_j3762391351854_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

theorem withArrays_keep {gr W : ℕ} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

theorem W2_keep (c : Dev nD) (b : Ref sig .tc) (h : ∀ w, Pipeline.arrRef spec0 w = b → (cfg0.win w).isOut = false) :
    W2 m ρ c (Proc.devRef .tc b) = W1 m ρ c (Proc.devRef .tc b) := by
  unfold W2
  exact withArrays_keep spec0 launch0.win.arr_inj c _ _ b fun w e =>
    ((dat0 (V1 m ρ) c).arrAt_in w (h w e) _).trans (A_eq0 (V1 m ρ) c w)
theorem W4_keep (c : Dev nD) (b : Ref sig .tc) (h : ∀ w, Pipeline.arrRef spec1 w = b → (cfg1.win w).isOut = false) :
    W4 m ρ c (Proc.devRef .tc b) = W3 m ρ c (Proc.devRef .tc b) := by
  unfold W4
  exact withArrays_keep spec1 launch1.win.arr_inj c _ _ b fun w e =>
    ((dat1 (V3 m ρ) c).arrAt_in w (h w e) _).trans (A_eq1 (V3 m ρ) c w)
theorem W5_keep (c : Dev nD) (b : Ref sig .tc) (h : ∀ w, Pipeline.arrRef spec2 w = b → (cfg2.win w).isOut = false) :
    W5 m ρ c (Proc.devRef .tc b) = W4 m ρ c (Proc.devRef .tc b) := by
  unfold W5
  exact withArrays_keep spec2 launch2.win.arr_inj c _ _ b fun w e =>
    ((dat2 (V4 m ρ) c).arrAt_in w (h w e) _).trans (A_eq2 (V4 m ρ) c w)

abbrev Kept (b : Ref sig .tc) : Prop :=
  b ∉ hostOps0_W ∧ b ∉ hostOps1_W ∧ (∀ w, Pipeline.arrRef spec0 w = b → (cfg0.win w).isOut = false) ∧
    (∀ w, Pipeline.arrRef spec1 w = b → (cfg1.win w).isOut = false) ∧
    ∀ w, Pipeline.arrRef spec2 w = b → (cfg2.win w).isOut = false

theorem W1_arg (c : Dev nD) (b : Ref sig .tc) (h : Kept b) :
    W1 m ρ c (Proc.devRef .tc b) = m ((c : Thread nD τ).loc b) := (W1_of m ρ c b h.1).trans rfl
theorem W2_arg (c : Dev nD) (b : Ref sig .tc) (h : Kept b) :
    W2 m ρ c (Proc.devRef .tc b) = m ((c : Thread nD τ).loc b) := (W2_keep m ρ c b h.2.2.1).trans (W1_arg m ρ c b h)
theorem W3_arg (c : Dev nD) (b : Ref sig .tc) (h : Kept b) :
    W3 m ρ c (Proc.devRef .tc b) = m ((c : Thread nD τ).loc b) := (W3_of m ρ c b h.2.1).trans (W2_arg m ρ c b h)
theorem W5_arg (c : Dev nD) (b : Ref sig .tc) (h : Kept b) :
    W5 m ρ c (Proc.devRef .tc b) = m ((c : Thread nD τ).loc b) :=
  (W5_keep m ρ c b h.2.2.2.2).trans ((W4_keep m ρ c b h.2.2.2.1).trans (W3_arg m ρ c b h))

theorem W5_res0 (c : Dev nD) : W5 m ρ c (Proc.devRef .tc main_v6) = (dat0 (V1 m ρ) c).arrAt 5 cfg0.N :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := W3_of m ρ c main_v6 (by decide)
    _ = (dat0 (V1 m ρ) c).arrAt 5 cfg0.N := W2_arr m ρ c 5
theorem W5_res1 (c : Dev nD) : W5 m ρ c (Proc.devRef .tc main_v15) = (dat2 (V4 m ρ) c).arrAt 4 cfg2.N :=
  W5_arr m ρ c 4

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem mem_uc_v6 : (Proc.devRef .tc main_v6 : DevRef τ sig) ∈ Pipeline.ucRefs τ sig := mem_uc main_v6 (by decide)
theorem mem_uc_v15 : (Proc.devRef .tc main_v15 : DevRef τ sig) ∈ Pipeline.ucRefs τ sig := mem_uc main_v15 (by decide)
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    have ho : (pdats m ρ 0 c).owed 0 = 0 := owed_eq0 (V1 m ρ) c 0
    have hr : (pdats m ρ 0 c).recorded 0 = Set.univ := recorded_eq0 (V1 m ρ) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (hr ▸ Set.mem_univ _)
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    have ho : (pdats m ρ 0 c).owed (Fin.last (Pipeline.pin (pcfgs (F := F)) adm 0).N) = 0 := owed_eq0 (V1 m ρ) c (Fin.last cfg0.N)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    have ho : (pdats m ρ 1 c).owed 0 = 0 := owed_eq1 (V3 m ρ) c 0
    have hr : (pdats m ρ 1 c).recorded 0 = Set.univ := recorded_eq1 (V3 m ρ) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (hr ▸ Set.mem_univ _)
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    have ho : (pdats m ρ 1 c).owed (Fin.last (Pipeline.pin (pcfgs (F := F)) adm 1).N) = 0 := owed_eq1 (V3 m ρ) c (Fin.last cfg1.N)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun c t => owed_eq2 (V4 m ρ) c t
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (V4 m ρ) c w) (V4 m ρ c) fun w => A_eq2 (V4 m ρ) c w
    rw [Pipeline.unscopedBufs_held] at hsplit
    have ho : (pdats m ρ 2 c).owed 0 = 0 := owed_eq2 (V4 m ρ) c 0
    have hr : (pdats m ρ 2 c).recorded 0 = Set.univ := recorded_eq2 (V4 m ρ) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (hr ▸ Set.mem_univ _)
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V4 m ρ) c w)
      (V4 m ρ c) (V5 m ρ c) ((pdats m ρ 2 c).arrAt · cfg2.N) (hF2 m ρ c) (hrest2 m ρ c)
    rw [Pipeline.unscopedBufs_held] at hjoin
    have ho : (pdats m ρ 2 c).owed (Fin.last (Pipeline.pin (pcfgs (F := F)) adm 2).N) = 0 := owed_eq2 (V4 m ρ) c (Fin.last cfg2.N)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [ho]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

theorem arg_kept (c : Dev nD) (mem : (ℓ : Loc nD τ sig) → Buf (Elt F) ℓ)
    (h : ∀ b ∈ Pipeline.ucRefs τ sig, mem (((c : Thread nD τ)).1, b) = W5 m ρ c b) (b : Ref sig .tc)
    (hs : ¬ (Proc.devRef .tc b : DevRef τ sig).isScoped) (hb : Kept b) :
    mem ((c.tc : Thread nD τ).loc b) = m ((c.tc : Thread nD τ).loc b) :=
  (h _ (mem_uc b hs)).trans (W5_arg m ρ c b hb)

abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)

theorem args_kept (c : Dev nD) (mem : (ℓ : Loc nD τ sig) → Buf (Elt F) ℓ)
    (h : ∀ b ∈ Pipeline.ucRefs τ sig, mem (((c : Thread nD τ)).1, b) = W5 m ρ c b) : ArgsKept m mem c :=
  ⟨arg_kept m ρ c mem h main_arg0 (by decide) (by decide),
   arg_kept m ρ c mem h main_arg1 (by decide) (by decide),
   arg_kept m ρ c mem h main_arg2 (by decide) (by decide),
   arg_kept m ρ c mem h main_arg3 (by decide) (by decide),
   arg_kept m ρ c mem h main_arg4 (by decide) (by decide),
   arg_kept m ρ c mem h main_arg5 (by decide) (by decide),
   arg_kept m ρ c mem h main_arg6 (by decide) (by decide),
   arg_kept m ρ c mem h main_arg7 (by decide) (by decide),
   arg_kept m ρ c mem h main_arg8 (by decide) (by decide),
   arg_kept m ρ c mem h main_arg9 (by decide) (by decide),
   arg_kept m ρ c mem h main_arg10 (by decide) (by decide)⟩

theorem frame : θ_run defs (onTc (τ := τ) (main (F := F))) ⟨m, fun _ => 0, ρ⟩
    (fun r => ∀ c : Dev nD, ArgsKept m r.2.mem c) :=
  (run_all m ρ).mono fun r h c => args_kept m ρ c r.mem (h c)

end Cert.KernelIdeal.Fr

end
-- ==== Proof.Spec.lean ====
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev Mat (a b : ℕ) : Type := FVec Ideal ⟨2, ![a, b]⟩ .f32
abbrev Vc (a : ℕ) : Type := FVec Ideal ⟨1, ![a]⟩ .f32

abbrev negInf : EReal := Ideal.ofBits .f32 0xFF800000#32
abbrev eps : EReal := Ideal.ofBits .f32 0x2EDBE6FF#32

def deAt (He : Mat 6144 16) (pv : Mat 1 16) (e : Fin 6144) : EReal := ∑ q : Fin 16, He (ix2 e q) * pv (ix2 0 q)
def deArr (He : Mat 6144 16) (pv : Mat 1 16) : Mat 1 6144 := fun x => deAt He pv (x 1)
def hwAt (Hv : Mat 2048 128) (Wv : Mat 128 64) (i : Fin 2048) (j : Fin 64) : EReal := ∑ q : Fin 128, Hv (ix2 i q) * Wv (ix2 q j)
def hwArr (Hv : Mat 2048 128) (Wv : Mat 128 64) : Mat 2048 64 := fun x => hwAt Hv Wv (x 0) (x 1)
def bvArr (bv : Vc 64) : Mat 1 64 := fun x => bv (ix1 (x 1))
def heweAt (He : Mat 6144 16) (We : Mat 16 16) (k : Fin 6144) (j : Fin 16) : EReal := ∑ q : Fin 16, He (ix2 k q) * We (ix2 q j)
def heweArr (He : Mat 6144 16) (We : Mat 16 16) : Mat 6144 16 := fun x => heweAt He We (x 0) (x 1)
def beArr (be : Vc 16) : Mat 1 16 := fun x => be (ix1 (x 1))

def gram1 (T : Mat 2048 6144) (de : Mat 1 6144) (i k : Fin 2048) : EReal :=
  ∑ e : Fin 6144, (T (ix2 i e) * de (ix2 0 e)) * T (ix2 k e)
def adjA (T : Mat 2048 6144) (de : Mat 1 6144) (adjv : Mat 2048 2048) (i k : Fin 2048) : EReal :=
  if i = k then adjv (ix2 i k) else gram1 T de i k * adjv (ix2 i k)
def hvAt (T : Mat 2048 6144) (de : Mat 1 6144) (adjv : Mat 2048 2048) (hw : Mat 2048 64) (bv : Mat 1 64)
    (i : Fin 2048) (j : Fin 64) : EReal :=
  (∑ k : Fin 2048, adjA T de adjv i k * hw (ix2 k j)) + bv (ix2 0 j)
def hvArr (T : Mat 2048 6144) (de : Mat 1 6144) (adjv : Mat 2048 2048) (hw : Mat 2048 64) (bv : Mat 1 64) : Mat 2048 64 :=
  fun x => hvAt T de adjv hw bv (x 0) (x 1)

def dvAt (hv : Mat 2048 64) (pe : Mat 1 64) (n : Fin 2048) : EReal := ∑ q : Fin 64, hv (ix2 n q) * pe (ix2 0 q)
def dvArr (hv : Mat 2048 64) (pe : Mat 1 64) : Mat 2048 1 := fun x => dvAt hv pe (x 0)
def gram2 (T : Mat 2048 6144) (dv : Mat 2048 1) (a b : Fin 6144) : EReal :=
  ∑ n : Fin 2048, (T (ix2 n a) * dv (ix2 n 0)) * T (ix2 n b)
def aAeAt (T : Mat 2048 6144) (dv : Mat 2048 1) (adje : Mat 6144 6144) (a b : Fin 6144) : EReal :=
  if a = b then adje (ix2 a b) else gram2 T dv a b * adje (ix2 a b)
def aAeArr (T : Mat 2048 6144) (dv : Mat 2048 1) (adje : Mat 6144 6144) : Mat 6144 6144 :=
  fun x => aAeAt T dv adje (x 0) (x 1)
def colMaxAt (B : Mat 6144 6144) (b : Fin 6144) : EReal :=
  (Finset.univ : Finset (Fin 6144)).fold max negInf fun a => B (ix2 a b)
def colMaxArr (B : Mat 6144 6144) : Mat 1 6144 := fun x => colMaxAt B (x 1)
def heAt (B : Mat 6144 6144) (cm : Mat 1 6144) (hewe : Mat 6144 16) (be : Mat 1 16) (i : Fin 6144) (j : Fin 16) : EReal :=
  (∑ k : Fin 6144, Ideal.div (B (ix2 i k)) (cm (ix2 0 k) + eps) * hewe (ix2 k j)) + be (ix2 0 j)
def heArr (B : Mat 6144 6144) (cm : Mat 1 6144) (hewe : Mat 6144 16) (be : Mat 1 16) : Mat 6144 16 :=
  fun x => heAt B cm hewe be (x 0) (x 1)

def res0 (Hv : Mat 2048 128) (He : Mat 6144 16) (adjv : Mat 2048 2048) (T : Mat 2048 6144) (Wv : Mat 128 64) (bv : Vc 64)
    (pv : Mat 1 16) : Mat 2048 64 :=
  hvArr T (deArr He pv) adjv (hwArr Hv Wv) (bvArr bv)
def res1 (Hv : Mat 2048 128) (He : Mat 6144 16) (adjv : Mat 2048 2048) (adje : Mat 6144 6144) (T : Mat 2048 6144)
    (Wv : Mat 128 64) (bv : Vc 64) (pv : Mat 1 16) (We : Mat 16 16) (be : Vc 16) (pe : Mat 1 64) : Mat 6144 16 :=
  let B := aAeArr T (dvArr (res0 Hv He adjv T Wv bv pv) pe) adje
  heArr B (colMaxArr B) (heweArr He We) (beArr be)

theorem deArr_apply (He : Mat 6144 16) (pv : Mat 1 16) (z : Fin 1) (e : Fin 6144) : deArr He pv (ix2 z e) = deAt He pv e := rfl
theorem hwArr_apply (Hv : Mat 2048 128) (Wv : Mat 128 64) (i : Fin 2048) (j : Fin 64) : hwArr Hv Wv (ix2 i j) = hwAt Hv Wv i j := rfl
theorem bvArr_apply (bv : Vc 64) (z : Fin 1) (j : Fin 64) : bvArr bv (ix2 z j) = bv (ix1 j) := rfl
theorem heweArr_apply (He : Mat 6144 16) (We : Mat 16 16) (k : Fin 6144) (j : Fin 16) : heweArr He We (ix2 k j) = heweAt He We k j := rfl
theorem beArr_apply (be : Vc 16) (z : Fin 1) (j : Fin 16) : beArr be (ix2 z j) = be (ix1 j) := rfl
theorem dvArr_apply (hv : Mat 2048 64) (pe : Mat 1 64) (n : Fin 2048) (z : Fin 1) : dvArr hv pe (ix2 n z) = dvAt hv pe n := rfl

end Cert.Spec

end
-- ==== Proof.LibBlocks.lean ====
import Mathlib.Algebra.BigOperators.Fin
import Mathlib.Logic.Equiv.Fin.Basic
import Mathlib.Data.Finset.Fold
import Mathlib.Data.Fintype.Prod

noncomputable section

open scoped BigOperators

namespace Cert.LibBlocks

variable {a b n : ℕ}

def blk (h : a * b = n) (t : Fin a) (r : Fin b) : Fin n :=
  ⟨b * t.val + r.val, by
    have ht := t.isLt; have hr := r.isLt
    calc b * t.val + r.val < b * t.val + b := by omega
      _ = b * (t.val + 1) := (Nat.mul_succ b t.val).symm
      _ ≤ b * a := Nat.mul_le_mul_left b ht
      _ = n := by rw [Nat.mul_comm]; exact h⟩

@[simp] theorem blk_val (h : a * b = n) (t : Fin a) (r : Fin b) : (blk h t r).val = b * t.val + r.val := rfl

def blkEquiv (h : a * b = n) : Fin a × Fin b ≃ Fin n := finProdFinEquiv.trans (finCongr h)

theorem blkEquiv_apply (h : a * b = n) (t : Fin a) (r : Fin b) : blkEquiv h (t, r) = blk h t r :=
  Fin.ext (by show r.val + b * t.val = b * t.val + r.val; exact Nat.add_comm _ _)

theorem blk_surj (h : a * b = n) (i : Fin n) : ∃ (t : Fin a) (r : Fin b), blk h t r = i :=
  ⟨((blkEquiv h).symm i).1, ((blkEquiv h).symm i).2, by
    rw [← blkEquiv_apply]; exact (blkEquiv h).apply_symm_apply i⟩

section Sum
variable {M : Type*} [AddCommMonoid M]

theorem sum_blocks (h : a * b = n) (f : Fin n → M) : ∑ x : Fin n, f x = ∑ t : Fin a, ∑ r : Fin b, f (blk h t r) := by
  rw [← Equiv.sum_comp (blkEquiv h) f, Fintype.sum_prod_type]
  exact Finset.sum_congr rfl fun t _ => Finset.sum_congr rfl fun r _ => congrArg f (blkEquiv_apply h t r)

theorem rec_sum {N : ℕ} (S B : ℕ → M) (h0 : S 0 = 0 + B 0) (hs : ∀ t, t + 1 < N → S (t + 1) = S t + B (t + 1))
    (t : ℕ) (ht : t < N) : S t = ∑ s ∈ Finset.range (t + 1), B s := by
  induction t with
  | zero => rw [h0, zero_add, Finset.sum_range_one]
  | succ t ih => rw [hs t ht, ih (by omega), Finset.sum_range_succ _ (t + 1)]

theorem acc_blocks (h : a * b = n) (f : Fin n → M) (S B : ℕ → M) (h0 : S 0 = 0 + B 0)
    (hs : ∀ t, t + 1 < a → S (t + 1) = S t + B (t + 1)) (hB : ∀ t : Fin a, B t.val = ∑ r : Fin b, f (blk h t r))
    (ha : 0 < a) : S (a - 1) = ∑ x : Fin n, f x := by
  rw [rec_sum S B h0 hs (a - 1) (by omega), show a - 1 + 1 = a by omega, Finset.sum_range, sum_blocks h]
  exact Finset.sum_congr rfl fun t _ => hB t

end Sum

section Max
variable {α : Type*} [LinearOrder α]

theorem fold_max_blocks (h : a * b = n) (c : α) (f : Fin n → α) :
    (Finset.univ : Finset (Fin n)).fold max c f
      = (Finset.univ : Finset (Fin a)).fold max c fun t => (Finset.univ : Finset (Fin b)).fold max c fun r => f (blk h t r) := by
  refine eq_of_forall_ge_iff fun x => ?_
  simp only [Finset.fold_max_le, Finset.mem_univ, forall_true_left]
  constructor
  · rintro ⟨hc, hf⟩
    exact ⟨hc, fun t => ⟨hc, fun r => hf _⟩⟩
  · rintro ⟨hc, hf⟩
    refine ⟨hc, fun i => ?_⟩
    obtain ⟨t, r, rfl⟩ := blk_surj h i
    exact (hf t).2 r

theorem rec_max {N : ℕ} (c : α) (S B : ℕ → α) (h0 : S 0 = max c (B 0)) (hs : ∀ t, t + 1 < N → S (t + 1) = max (S t) (B (t + 1)))
    (t : ℕ) (ht : t < N) : S t = (Finset.range (t + 1)).fold max c B := by
  induction t with
  | zero =>
    rw [h0]
    refine eq_of_forall_ge_iff fun x => ?_
    simp only [max_le_iff, Finset.fold_max_le, Nat.zero_add, Finset.range_one, Finset.mem_singleton, forall_eq]
  | succ t ih =>
    rw [hs t ht, ih (by omega)]
    refine eq_of_forall_ge_iff fun x => ?_
    simp only [max_le_iff, Finset.fold_max_le, Finset.mem_range]
    constructor
    · rintro ⟨⟨hc, hf⟩, hl⟩
      refine ⟨hc, fun s hs' => ?_⟩
      rcases Nat.lt_succ_iff_lt_or_eq.mp hs' with h' | rfl
      · exact hf s h'
      · exact hl
    · rintro ⟨hc, hf⟩
      exact ⟨⟨hc, fun s hs' => hf s (by omega)⟩, hf (t + 1) (by omega)⟩

theorem fold_max_range (c : α) (B : ℕ → α) (a : ℕ) :
    (Finset.range a).fold max c B = (Finset.univ : Finset (Fin a)).fold max c fun t => B t.val := by
  refine eq_of_forall_ge_iff fun x => ?_
  simp only [Finset.fold_max_le, Finset.mem_range, Finset.mem_univ, forall_true_left]
  exact ⟨fun ⟨hc, hf⟩ => ⟨hc, fun t => hf t.val t.isLt⟩, fun ⟨hc, hf⟩ => ⟨hc, fun s hs' => hf ⟨s, hs'⟩⟩⟩

theorem acc_max_blocks (h : a * b = n) (c : α) (f : Fin n → α) (S B : ℕ → α) (h0 : S 0 = max c (B 0))
    (hs : ∀ t, t + 1 < a → S (t + 1) = max (S t) (B (t + 1)))
    (hB : ∀ t : Fin a, B t.val = (Finset.univ : Finset (Fin b)).fold max c fun r => f (blk h t r))
    (ha : 0 < a) : S (a - 1) = (Finset.univ : Finset (Fin n)).fold max c f := by
  rw [rec_max c S B h0 hs (a - 1) (by omega), show a - 1 + 1 = a by omega, fold_max_range, fold_max_blocks h]
  exact congrArg (fun g => (Finset.univ : Finset (Fin a)).fold max c g) (funext fun t => hB t)

end Max

end Cert.LibBlocks

end
-- ==== Proof.KI.V0.lean ====
import proofs.«158961_j3762391351854_1_alg».proof.Proof.KI.R0
import proofs.«158961_j3762391351854_1_alg».proof.Proof.Spec
import proofs.«158961_j3762391351854_1_alg».proof.Proof.LibBlocks
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.Val.R0

open Cert.KernelIdeal Cert.KernelIdeal.Gen Cert.KernelIdeal.Fr
open Idealize.ShloMosaic Idealize.ShloMosaic.TcCoe Idealize.ShloMosaic.Tactic Idealize.SL.Sem Idealize.ShloMosaic.ValueIdx
open Idealize.ShloMosaic.Pipeline (Dat)

theorem lhs1_0 (j : S2048x2048.Idx) (q : dot_S2048x512_S2048x512_S2048x2048_1_1_0_0_n_n.contr.Idx) :
    (dot_S2048x512_S2048x512_S2048x2048_1_1_0_0_n_n.lhsIdx j q 0).val = (j 0).val := by
  unfold DotDims.lhsIdx
  rw [dif_neg (show ¬(0 : Fin S2048x512.rank) ∈ dot_S2048x512_S2048x512_S2048x2048_1_1_0_0_n_n.lhsBatch by decide), dif_pos (show (0 : Fin S2048x512.rank) ∈ dot_S2048x512_S2048x512_S2048x2048_1_1_0_0_n_n.lhsNonContracting by decide)]
  rfl
theorem lhs1_1 (j : S2048x2048.Idx) (q : dot_S2048x512_S2048x512_S2048x2048_1_1_0_0_n_n.contr.Idx) :
    (dot_S2048x512_S2048x512_S2048x2048_1_1_0_0_n_n.lhsIdx j q 1).val = (q ⟨0, by decide⟩).val :=
  dot_S2048x512_S2048x512_S2048x2048_1_1_0_0_n_n.lhsIdx_val_of_single rfl j q
theorem rhs1_0 (j : S2048x2048.Idx) (q : dot_S2048x512_S2048x512_S2048x2048_1_1_0_0_n_n.contr.Idx) :
    (dot_S2048x512_S2048x512_S2048x2048_1_1_0_0_n_n.rhsIdx j q 0).val = (j 1).val := by
  unfold DotDims.rhsIdx
  rw [dif_neg (show ¬(0 : Fin S2048x512.rank) ∈ dot_S2048x512_S2048x512_S2048x2048_1_1_0_0_n_n.rhsBatch by decide), dif_pos (show (0 : Fin S2048x512.rank) ∈ dot_S2048x512_S2048x512_S2048x2048_1_1_0_0_n_n.rhsNonContracting by decide)]
  rfl
theorem rhs1_1 (j : S2048x2048.Idx) (q : dot_S2048x512_S2048x512_S2048x2048_1_1_0_0_n_n.contr.Idx) :
    (dot_S2048x512_S2048x512_S2048x2048_1_1_0_0_n_n.rhsIdx j q 1).val = (q ⟨0, by decide⟩).val :=
  dot_S2048x512_S2048x512_S2048x2048_1_1_0_0_n_n.rhsIdx_val_of_single rfl j q

theorem matmul1_apply (l r : FVec Ideal S2048x512 .bf16) (i k : Fin 2048) :
    matmul (F := Ideal) dot_S2048x512_S2048x512_S2048x2048_1_1_0_0_n_n none l r (constant (F := Ideal) S2048x2048 .f32 0x00000000#32) (ix2 i k)
      = ∑ e : Fin 512, l (ix2 i e) * r (ix2 k e) := by
  simp only [matmul]
  rw [Ideal.matmul_constant_zero_apply, ← Equiv.sum_comp (contrEquiv1 dot_S2048x512_S2048x512_S2048x2048_1_1_0_0_n_n 512 rfl rfl).symm]
  refine Finset.sum_congr rfl fun e _ => ?_
  have hk := contrEquiv1_symm_val dot_S2048x512_S2048x512_S2048x2048_1_1_0_0_n_n 512 rfl rfl e
  have el : dot_S2048x512_S2048x512_S2048x2048_1_1_0_0_n_n.lhsIdx (ix2 i k) ((contrEquiv1 dot_S2048x512_S2048x512_S2048x2048_1_1_0_0_n_n 512 rfl rfl).symm e) = ix2 i e := funext fun a => Fin.ext (by
    match a with
    | ⟨0, _⟩ => exact lhs1_0 _ _
    | ⟨1, _⟩ => exact (lhs1_1 _ _).trans hk)
  have er : dot_S2048x512_S2048x512_S2048x2048_1_1_0_0_n_n.rhsIdx (ix2 i k) ((contrEquiv1 dot_S2048x512_S2048x512_S2048x2048_1_1_0_0_n_n 512 rfl rfl).symm e) = ix2 k e := funext fun a => Fin.ext (by
    match a with
    | ⟨0, _⟩ => exact rhs1_0 _ _
    | ⟨1, _⟩ => exact (rhs1_1 _ _).trans hk)
  rw [el, er]

theorem lhs2_0 (j : S2048x64.Idx) (q : dot_S2048x2048_S2048x64_S2048x64_1_0_0_1_n_n.contr.Idx) :
    (dot_S2048x2048_S2048x64_S2048x64_1_0_0_1_n_n.lhsIdx j q 0).val = (j 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs2_1 (j : S2048x64.Idx) (q : dot_S2048x2048_S2048x64_S2048x64_1_0_0_1_n_n.contr.Idx) :
    (dot_S2048x2048_S2048x64_S2048x64_1_0_0_1_n_n.lhsIdx j q 1).val = (q ⟨0, by decide⟩).val :=
  dot_S2048x2048_S2048x64_S2048x64_1_0_0_1_n_n.lhsIdx_val_of_single rfl j q
theorem rhs2_0 (j : S2048x64.Idx) (q : dot_S2048x2048_S2048x64_S2048x64_1_0_0_1_n_n.contr.Idx) :
    (dot_S2048x2048_S2048x64_S2048x64_1_0_0_1_n_n.rhsIdx j q 0).val = (q ⟨0, by decide⟩).val :=
  dot_S2048x2048_S2048x64_S2048x64_1_0_0_1_n_n.rhsIdx_val_of_single rfl j q
theorem rhs2_1 (j : S2048x64.Idx) (q : dot_S2048x2048_S2048x64_S2048x64_1_0_0_1_n_n.contr.Idx) :
    (dot_S2048x2048_S2048x64_S2048x64_1_0_0_1_n_n.rhsIdx j q 1).val = (j 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

theorem matmul2_apply (l : FVec Ideal S2048x2048 .bf16) (r : FVec Ideal S2048x64 .bf16) (i : Fin 2048) (j : Fin 64) :
    matmul (F := Ideal) dot_S2048x2048_S2048x64_S2048x64_1_0_0_1_n_n none l r (constant (F := Ideal) S2048x64 .f32 0x00000000#32) (ix2 i j)
      = ∑ k : Fin 2048, l (ix2 i k) * r (ix2 k j) := by
  simp only [matmul]
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 i j) ((contrEquiv1 dot_S2048x2048_S2048x64_S2048x64_1_0_0_1_n_n 2048 rfl rfl).symm k) = ix2 i k := funext fun a => Fin.ext (by
    match a with
    | ⟨0, _⟩ => exact lhs2_0 _ _
    | ⟨1, _⟩ => exact (lhs2_1 _ _).trans hk)
  have er : dot_S2048x2048_S2048x64_S2048x64_1_0_0_1_n_n.rhsIdx (ix2 i j) ((contrEquiv1 dot_S2048x2048_S2048x64_S2048x64_1_0_0_1_n_n 2048 rfl rfl).symm k) = ix2 k j := funext fun a => Fin.ext (by
    match a with
    | ⟨0, _⟩ => exact (rhs2_0 _ _).trans hk
    | ⟨1, _⟩ => exact rhs2_1 _ _)
  rw [el, er]

theorem wrow_apply (v6 : Vec Ideal S1x512 .f32) (i : Fin 2048) (e : Fin 512) :
    broadcastTo S2048x512 (shapeCast S1x512 (shapeCast S512 v6 shapeCasts_S1x512_S512) shapeCasts_S512_S1x512) broadcasts_S1x512_S2048x512 (ix2 i e)
      = v6 (ix2 0 e) := by
  rw [broadcastTo_1b_ab_apply, shapeCast_a_1a_apply, shapeCast_1a_a_apply]

theorem pay2_apply (v6 : Vec Ideal S1x512 .f32) (v8 : Vec Ideal S2048x512 .f32) (v14 : Vec Ideal S2048x2048 .f32) (i k : Fin 2048) :
    k0_pay2 (F := Ideal) v6 v8 v14 (ix2 i k) = v14 (ix2 i k) + ∑ e : Fin 512, (v8 (ix2 i e) * v6 (ix2 0 e)) * v8 (ix2 k e) := by
  unfold k0_pay2
  refine (congrFun (shapeCast_self _ _) _).trans ?_
  refine congrArg (v14 (ix2 i k) + ·) ?_
  refine (matmul1_apply _ _ i k).trans ?_
  refine Finset.sum_congr rfl fun e _ => ?_
  exact congrArg (fun z => (v8 (ix2 i e) * z) * v8 (ix2 k e)) (wrow_apply v6 i e)

theorem pay1_apply (j : S2048x2048.Idx) : k0_pay1 (F := Ideal) j = 0 := by
  unfold k0_pay1
  refine (congrFun (shapeCast_self _ _) _).trans ?_
  exact Ideal.ofBits_zero_f32

theorem pay3_apply (v26 v27 : Vec Ideal S2048x2048 .f32) (i k : Fin 2048) :
    k0_pay3 (F := Ideal) v26 v27 (ix2 i k) = if i = k then v26 (ix2 i k) else v27 (ix2 i k) * v26 (ix2 i k) := by
  unfold k0_pay3
  refine (congrFun (shapeCast_self _ _) _).trans ?_
  show (if IntOp.cmpi .eq (iota .tc S2048x2048 32 [0] iota_S2048x2048_d0_w32 (ix2 i k)) (iota .tc S2048x2048 32 [1] iota_S2048x2048_d1_w32 (ix2 i k)) = 1#1
      then v26 (ix2 i k) else v27 (ix2 i k) * v26 (ix2 i k)) = _
  rw [iota_single_apply, iota_single_apply]
  have hc : (IntOp.cmpi .eq (BitVec.ofNat 32 ((ix2 i k : S2048x2048.Idx) 0).val) (BitVec.ofNat 32 ((ix2 i k : S2048x2048.Idx) 1).val) = 1#1) ↔ i = k := by
    rw [IntOp.cmpi_eq]
    show BitVec.ofNat 32 i.val = BitVec.ofNat 32 k.val ↔ i = k
    constructor
    · intro h
      have h' := congrArg BitVec.toNat h
      simp only [BitVec.toNat_ofNat] at h'
      apply Fin.ext
      have := i.isLt; have := k.isLt
      omega
    · rintro rfl; rfl
  by_cases h : i = k
  · rw [if_pos (hc.mpr h), if_pos h]
  · rw [if_neg (fun h' => h (hc.mp h')), if_neg h]

theorem pay4_apply (v33 : Vec Ideal S2048x2048 .f32) (v35 : Vec Ideal S2048x64 .f32) (v39 : Vec Ideal S1x64 .f32) (i : Fin 2048) (j : Fin 64) :
    k0_pay4 (F := Ideal) v33 v35 v39 (ix2 i j) = (∑ k : Fin 2048, v33 (ix2 i k) * v35 (ix2 k j)) + v39 (ix2 0 j) := by
  unfold k0_pay4
  show matmul (F := Ideal) dot_S2048x2048_S2048x64_S2048x64_1_0_0_1_n_n none _ _ _ (ix2 i j) + broadcastTo S2048x64 (shapeCast S1x64 v39 shapeCasts_S1x64_S1x64) broadcasts_S1x64_S2048x64 (ix2 i j) = _
  rw [matmul2_apply, broadcastTo_1b_ab_apply, shapeCast_self, shapeCast_self]
  rfl

section Pieces
variable {F : FTy → Type} [FloatOps F]

theorem hz : (![0, 0] : Fin 2 → Nat) = fun _ => 0 := funext fun a => by fin_cases a <;> rfl

abbrev wcols (i : grid0.Coords) (x1 : Vec F S1x6144 .f32) : Vec F S1x512 .f32 :=
  View.ld x1 (Rect.unit (s := S1x6144) (k0_off1 i) S1x512.size (k0_off1_inb i))

section
variable (c : Dev nD) (i : grid0.Coords) (arg1 : Memref sig .tc .vmem S2048x512 .f32) (harg1 : arg1.IsWhole) (arg2 : Memref sig .tc .vmem S1x6144 .f32) (harg2 : arg2.IsWhole) (arg3 : Memref sig .tc .vmem S2048x2048 .f32) (harg3 : arg3.IsWhole) (arg4 : Memref sig .tc .vmem S2048x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x2048 .f32) (harg7 : arg7.IsWhole)

theorem soutA_eq (hc0 : cond0_0 i) (hc1 : ¬cond0_1 i) (x0 : Vec F S2048x512 .f32) (x1 : Vec F S1x6144 .f32) (x2 : Vec F S2048x2048 .f32) (x3 : Vec F S2048x64 .f32) (x4 : Vec F S1x64 .f32) :
    sout0_A_0 c i arg1 harg1 arg2 harg2 arg3 harg3 arg4 harg4 arg5 harg5 arg6 harg6 arg7 harg7 hc0 hc1 x0 x1 x2 x3 x4 = k0_pay2 (wcols i x1) x0 (k0_pay1 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  try sl_unfold_words
  rw [View.canon_cons_unit_zero (S := S2048x2048) hz, View.readCov_unit_zero (S := S2048x2048) _ hz]
  simp only [View.readAt_eq_ld, harg1.read_unread, harg2.read_unread, View.ld_unit_zero (S := S2048x512) hz]
  try rfl

theorem soutB_eq (hc0 : ¬cond0_0 i) (hc1 : ¬cond0_1 i) (x0 : Vec F S2048x512 .f32) (x1 : Vec F S1x6144 .f32) (x2 : Vec F S2048x2048 .f32) (x3 : Vec F S2048x64 .f32) (x4 : Vec F S1x64 .f32) (xs0 : Vec F S2048x2048 .f32) :
    sout0_B_0 c i arg1 harg1 arg2 harg2 arg3 harg3 arg4 harg4 arg5 harg5 arg6 harg6 arg7 harg7 hc0 hc1 x0 x1 x2 x3 x4 xs0 = k0_pay2 (wcols i x1) x0 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  try sl_unfold_words
  rw [View.canon_unit_zero hz]
  simp only [View.readAt_eq_ld, harg1.read_unread, harg2.read_unread, harg7.read_unread, View.ld_unit_zero (S := S2048x512) hz, View.ld_unit_zero (S := S2048x2048) hz]
  try rfl

theorem soutC_eq (hc0 : ¬cond0_0 i) (hc1 : cond0_1 i) (x0 : Vec F S2048x512 .f32) (x1 : Vec F S1x6144 .f32) (x2 : Vec F S2048x2048 .f32) (x3 : Vec F S2048x64 .f32) (x4 : Vec F S1x64 .f32) (xs0 : Vec F S2048x2048 .f32) :
    sout0_C_0 c i arg1 harg1 arg2 harg2 arg3 harg3 arg4 harg4 arg5 harg5 arg6 harg6 arg7 harg7 hc0 hc1 x0 x1 x2 x3 x4 xs0 = k0_pay3 x2 (k0_pay2 (wcols i x1) x0 xs0) := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  try sl_unfold_words
  rw [View.canon_cons_unit_zero (S := S2048x2048) hz, View.readCov_unit_zero (S := S2048x2048) _ hz]
  simp only [View.readAt_eq_ld, harg1.read_unread, harg2.read_unread, harg3.read_unread, harg7.read_unread, View.ld_unit_zero (S := S2048x512) hz, View.ld_unit_zero (S := S2048x2048) hz]
  try rfl

theorem outC_eq (hc0 : ¬cond0_0 i) (hc1 : cond0_1 i) (x0 : Vec F S2048x512 .f32) (x1 : Vec F S1x6144 .f32) (x2 : Vec F S2048x2048 .f32) (x3 : Vec F S2048x64 .f32) (x4 : Vec F S1x64 .f32) (xs0 : Vec F S2048x2048 .f32) :
    out0_C_5 c i arg1 harg1 arg2 harg2 arg3 harg3 arg4 harg4 arg5 harg5 arg6 harg6 arg7 harg7 hc0 hc1 x0 x1 x2 x3 x4 xs0 = k0_pay4 (k0_pay3 x2 (k0_pay2 (wcols i x1) x0 xs0)) x3 x4 := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  try sl_unfold_words
  rw [View.canon_unit_zero hz, View.readCov_cons_toLoadRect, View.readCov_unit_zero (S := S2048x2048) _ hz]
  simp only [View.readAt_eq_ld, harg1.read_unread, harg2.read_unread, harg3.read_unread, harg4.read_unread, harg5.read_unread, harg7.read_unread, View.ld_unit_zero (S := S2048x512) hz, View.ld_unit_zero (S := S2048x2048) hz, View.ld_unit_zero (S := S2048x64) hz, View.ld_unit_zero (S := S1x64) hz]
  try rfl
end

end Pieces

section Value
variable (V : (c : Dev nD) → (b : Ref sig .tc) → Buf (Elt Ideal) ((c : Thread nD τ).loc b)) (c : Dev nD)

abbrev arrT : Vec Ideal S2048x6144 .f32 := V c main_arg4
abbrev arrD : Vec Ideal S1x6144 .f32 := V c main_v4
abbrev arrA : Vec Ideal S2048x2048 .f32 := V c main_arg2
abbrev arrH : Vec Ideal S2048x64 .f32 := V c main_v3
abbrev arrB : Vec Ideal S1x64 .f32 := V c main_v5

abbrev xb (t : Fin cfg0.N) : Vec Ideal S2048x512 .f32 := iblk0 V c 0 t
abbrev wb (t : Fin cfg0.N) : Vec Ideal S1x6144 .f32 := iblk0 V c 1 t
abbrev ab (t : Fin cfg0.N) : Vec Ideal S2048x2048 .f32 := iblk0 V c 2 t
abbrev hb (t : Fin cfg0.N) : Vec Ideal S2048x64 .f32 := iblk0 V c 3 t
abbrev bb (t : Fin cfg0.N) : Vec Ideal S1x64 .f32 := iblk0 V c 4 t

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem off1 : ∀ t : Fin cfg0.N, k0_off1 (grid0.coords t) 0 = 0 ∧ k0_off1 (grid0.coords t) 1 = 512 * t.val :=
  (by decide +kernel : ∀ t : Fin grid0.N, k0_off1 (grid0.coords t) 0 = 0 ∧ k0_off1 (grid0.coords t) 1 = 512 * t.val)

theorem xb_apply (t : Fin cfg0.N) (i : Fin 2048) (r : Fin 512) (e : Fin 6144) (he : e.val = 512 * t.val + r.val) :
    xb V c t (ix2 i r) = arrT V c (ix2 i e) := by
  obtain ⟨h0, h1⟩ := idx0 t
  show iblk0 V c 0 t (ix2 i r) = V c main_arg4 (ix2 i e)
  unfold iblk0
  rw [View.read_apply]
  show V c main_arg4 _ = V c main_arg4 _
  congr 1
  funext a
  apply Fin.ext
  match a with
  | ⟨0, _⟩ => show win0_0.index t 0 * 2048 + 1 * i.val = i.val; rw [h0]; omega
  | ⟨1, _⟩ => show win0_0.index t 1 * 512 + 1 * r.val = e.val; rw [h1, he]; omega

theorem wb_eq (t : Fin cfg0.N) : wb V c t = arrD V c := by
  obtain ⟨h0, h1⟩ := idx1 t
  funext y
  show iblk0 V c 1 t y = V c main_v4 y
  unfold iblk0
  rw [View.read_apply]
  show V c main_v4 _ = V c main_v4 _
  congr 1
  funext a
  apply Fin.ext
  match a with
  | ⟨0, _⟩ => show win0_1.index t 0 * 1 + 1 * (y 0).val = (y 0).val; rw [h0]; omega
  | ⟨1, _⟩ => show win0_1.index t 1 * 6144 + 1 * (y 1).val = (y 1).val; rw [h1]; omega
theorem ab_eq (t : Fin cfg0.N) : ab V c t = arrA V c := by
  obtain ⟨h0, h1⟩ := idx2 t
  funext y
  show iblk0 V c 2 t y = V c main_arg2 y
  unfold iblk0
  rw [View.read_apply]
  show V c main_arg2 _ = V c main_arg2 _
  congr 1
  funext a
  apply Fin.ext
  match a with
  | ⟨0, _⟩ => show win0_2.index t 0 * 2048 + 1 * (y 0).val = (y 0).val; rw [h0]; omega
  | ⟨1, _⟩ => show win0_2.index t 1 * 2048 + 1 * (y 1).val = (y 1).val; rw [h1]; omega
theorem hb_eq (t : Fin cfg0.N) : hb V c t = arrH V c := by
  obtain ⟨h0, h1⟩ := idx3 t
  funext y
  show iblk0 V c 3 t y = V c main_v3 y
  unfold iblk0
  rw [View.read_apply]
  show V c main_v3 _ = V c main_v3 _
  congr 1
  funext a
  apply Fin.ext
  match a with
  | ⟨0, _⟩ => show win0_3.index t 0 * 2048 + 1 * (y 0).val = (y 0).val; rw [h0]; omega
  | ⟨1, _⟩ => show win0_3.index t 1 * 64 + 1 * (y 1).val = (y 1).val; rw [h1]; omega
theorem bb_eq (t : Fin cfg0.N) : bb V c t = arrB V c := by
  obtain ⟨h0, h1⟩ := idx4 t
  funext y
  show iblk0 V c 4 t y = V c main_v5 y
  unfold iblk0
  rw [View.read_apply]
  show V c main_v5 _ = V c main_v5 _
  congr 1
  funext a
  apply Fin.ext
  match a with
  | ⟨0, _⟩ => show win0_4.index t 0 * 1 + 1 * (y 0).val = (y 0).val; rw [h0]; omega
  | ⟨1, _⟩ => show win0_4.index t 1 * 64 + 1 * (y 1).val = (y 1).val; rw [h1]; omega

theorem wcols_apply (t : Fin cfg0.N) (x1 : Vec Ideal S1x6144 .f32) (r : Fin 512) (e : Fin 6144) (he : e.val = 512 * t.val + r.val) :
    wcols (grid0.coords t) x1 (ix2 0 r) = x1 (ix2 0 e) := by
  obtain ⟨h0, h1⟩ := off1 t
  show x1 _ = x1 _
  congr 1
  funext a
  apply Fin.ext
  match a with
  | ⟨0, _⟩ => show k0_off1 (grid0.coords t) 0 + 1 * 0 = 0; rw [h0]
  | ⟨1, _⟩ => show k0_off1 (grid0.coords t) 1 + 1 * r.val = e.val; rw [h1, he]; omega

def acc : (n : ℕ) → n < cfg0.N → Vec Ideal S2048x2048 .f32
  | 0, h => k0_pay2 (wcols (grid0.coords ⟨0, h⟩) (wb V c ⟨0, h⟩)) (xb V c ⟨0, h⟩) (k0_pay1 (F := Ideal))
  | n + 1, h => k0_pay2 (wcols (grid0.coords ⟨n + 1, h⟩) (wb V c ⟨n + 1, h⟩)) (xb V c ⟨n + 1, h⟩) (acc n (Nat.lt_of_succ_lt h))

theorem scr_eq : ∀ (n : ℕ) (h : n < cfg0.N), n < 11 → (outsAt0 V c n h).2 = acc V c n h
  | 0, h, _ => by
    have h0 : (⟨0, h⟩ : Fin cfg0.N).val % 12 = 0 := rfl
    have h1 : ¬(⟨0, h⟩ : Fin cfg0.N).val % 12 = 11 := by dsimp only; omega
    rw [outsAt0_A V c ⟨0, h⟩ h0 h1]
    dsimp only
    exact soutA_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr h0) (fun hh => h1 ((hcond0_1 ⟨0, h⟩).mp hh)) (iblk0 V c 0 ⟨0, h⟩) (iblk0 V c 1 ⟨0, h⟩) (iblk0 V c 2 ⟨0, h⟩) (iblk0 V c 3 ⟨0, h⟩) (iblk0 V c 4 ⟨0, h⟩)
  | n + 1, h, hn => by
    have h0 : ¬(⟨n + 1, h⟩ : Fin cfg0.N).val % 12 = 0 := by dsimp only; omega
    have h1 : ¬(⟨n + 1, h⟩ : Fin cfg0.N).val % 12 = 11 := by dsimp only; omega
    rw [outsAt0_B V c ⟨n + 1, h⟩ h0 h1]
    dsimp only
    rw [soutB_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)]
    show k0_pay2 _ _ (outsAt0 V c n _).2 = k0_pay2 _ _ (acc V c n _)
    rw [scr_eq n (Nat.lt_of_succ_lt h) (by omega)]

def bsum (t : Fin cfg0.N) (i k : Fin 2048) : EReal :=
  ∑ r : Fin 512, (xb V c t (ix2 i r) * wcols (grid0.coords t) (wb V c t) (ix2 0 r)) * xb V c t (ix2 k r)

def term (i k : Fin 2048) (e : Fin 6144) : EReal := (arrT V c (ix2 i e) * arrD V c (ix2 0 e)) * arrT V c (ix2 k e)

theorem bsum_eq (t : Fin 12) (ht : t.val < cfg0.N) (i k : Fin 2048) :
    bsum V c ⟨t.val, ht⟩ i k = ∑ r : Fin 512, term V c i k (Cert.LibBlocks.blk (a := 12) (b := 512) (n := 6144) (by norm_num) t r) := by
  unfold bsum term
  refine Finset.sum_congr rfl fun r _ => ?_
  have e1 := xb_apply V c ⟨t.val, ht⟩ i r (Cert.LibBlocks.blk (a := 12) (b := 512) (n := 6144) (by norm_num) t r) rfl
  have e2 := xb_apply V c ⟨t.val, ht⟩ k r (Cert.LibBlocks.blk (a := 12) (b := 512) (n := 6144) (by norm_num) t r) rfl
  have e3 := (wcols_apply ⟨t.val, ht⟩ (wb V c ⟨t.val, ht⟩) r (Cert.LibBlocks.blk (a := 12) (b := 512) (n := 6144) (by norm_num) t r) rfl).trans
    (congrFun (wb_eq V c ⟨t.val, ht⟩) _)
  rw [e1, e2, e3]

theorem acc_zero_apply (h : 0 < cfg0.N) (i k : Fin 2048) : acc V c 0 h (ix2 i k) = 0 + bsum V c ⟨0, h⟩ i k := by
  show k0_pay2 (F := Ideal) (wcols (grid0.coords ⟨0, h⟩) (wb V c ⟨0, h⟩)) (xb V c ⟨0, h⟩) (k0_pay1 (F := Ideal)) (ix2 i k) = _
  refine (pay2_apply (wcols (grid0.coords ⟨0, h⟩) (wb V c ⟨0, h⟩)) (xb V c ⟨0, h⟩) (k0_pay1 (F := Ideal)) i k).trans ?_
  rw [pay1_apply]
  rfl

theorem acc_succ_apply (n : ℕ) (h : n + 1 < cfg0.N) (i k : Fin 2048) :
    acc V c (n + 1) h (ix2 i k) = acc V c n (Nat.lt_of_succ_lt h) (ix2 i k) + bsum V c ⟨n + 1, h⟩ i k :=
  pay2_apply (wcols (grid0.coords ⟨n + 1, h⟩) (wb V c ⟨n + 1, h⟩)) (xb V c ⟨n + 1, h⟩) (acc V c n (Nat.lt_of_succ_lt h)) i k

theorem acc_last (h : 11 < cfg0.N) (i k : Fin 2048) :
    acc V c 11 h (ix2 i k) = Cert.Spec.gram1 (arrT V c) (arrD V c) i k := by
  have hN : cfg0.N = 12 := N_0
  have key := Cert.LibBlocks.acc_blocks (a := 12) (b := 512) (n := 6144) (M := EReal) (by norm_num)
    (term V c i k)
    (fun t => if ht : t < cfg0.N then acc V c t ht (ix2 i k) else 0)
    (fun t => if ht : t < cfg0.N then bsum V c ⟨t, ht⟩ i k else 0)
    (by
      have h0 : 0 < cfg0.N := by omega
      show (if ht : 0 < cfg0.N then acc V c 0 ht (ix2 i k) else 0) = 0 + (if ht : 0 < cfg0.N then bsum V c ⟨0, ht⟩ i k else 0)
      rw [dif_pos h0, dif_pos h0]
      exact acc_zero_apply V c h0 i k)
    (fun t ht => by
      have h1 : t + 1 < cfg0.N := by omega
      have h2 : t < cfg0.N := by omega
      show (if ht : t + 1 < cfg0.N then acc V c (t + 1) ht (ix2 i k) else 0)
        = (if ht : t < cfg0.N then acc V c t ht (ix2 i k) else 0) + (if ht : t + 1 < cfg0.N then bsum V c ⟨t + 1, ht⟩ i k else 0)
      rw [dif_pos h1, dif_pos h2, dif_pos h1]
      exact acc_succ_apply V c t h1 i k)
    (fun t => by
      have h1 : t.val < cfg0.N := by have := t.isLt; omega
      show (if ht : t.val < cfg0.N then bsum V c ⟨t.val, ht⟩ i k else 0) = _
      rw [dif_pos h1]
      exact bsum_eq V c t h1 i k)
    (by norm_num)
  have key' : (if ht : 11 < cfg0.N then acc V c 11 ht (ix2 i k) else 0) = ∑ e : Fin 6144, term V c i k e := key
  rw [dif_pos h] at key'
  exact key'

theorem out_last (h : 11 < cfg0.N) :
    (outsAt0 V c 11 h).1 = k0_pay4 (k0_pay3 (ab V c ⟨11, h⟩) (acc V c 11 h)) (hb V c ⟨11, h⟩) (bb V c ⟨11, h⟩) := by
  have h0 : ¬(⟨11, h⟩ : Fin cfg0.N).val % 12 = 0 := by dsimp only; omega
  have h1 : (⟨11, h⟩ : Fin cfg0.N).val % 12 = 11 := rfl
  rw [outsAt0_C V c ⟨11, h⟩ h0 h1]
  dsimp only
  rw [outC_eq (F := Ideal) c (grid0.coords ⟨11, h⟩) (ms0_0 ⟨11, h⟩) (hs0_0 ⟨11, h⟩) (ms0_1 ⟨11, h⟩) (hs0_1 ⟨11, h⟩) (ms0_2 ⟨11, h⟩) (hs0_2 ⟨11, h⟩) (ms0_3 ⟨11, h⟩) (hs0_3 ⟨11, h⟩) (ms0_4 ⟨11, h⟩) (hs0_4 ⟨11, h⟩) (ms0_5 ⟨11, h⟩) (hs0_5 ⟨11, h⟩) scM0_0 (Memref.isWhole_whole _) (fun hh => h0 ((hcond0_0 ⟨11, h⟩).mp hh)) ((hcond0_1 ⟨11, h⟩).mpr h1) (iblk0 V c 0 ⟨11, h⟩) (iblk0 V c 1 ⟨11, h⟩) (iblk0 V c 2 ⟨11, h⟩) (iblk0 V c 3 ⟨11, h⟩) (iblk0 V c 4 ⟨11, h⟩)]
  show k0_pay4 (k0_pay3 _ (k0_pay2 _ _ (outsAt0 V c 10 _).2)) _ _ = _
  rw [scr_eq V c 10 _ (by decide)]
  rfl

theorem out_last_apply (h : 11 < cfg0.N) (i : Fin 2048) (j : Fin 64) :
    (outsAt0 V c 11 h).1 (ix2 i j)
      = Cert.Spec.hvAt (arrT V c) (arrD V c) (arrA V c) (arrH V c) (arrB V c) i j := by
  rw [out_last V c h]
  refine (pay4_apply (k0_pay3 (ab V c ⟨11, h⟩) (acc V c 11 h)) (hb V c ⟨11, h⟩) (bb V c ⟨11, h⟩) i j).trans ?_
  unfold Cert.Spec.hvAt
  rw [hb_eq V c ⟨11, h⟩, bb_eq V c ⟨11, h⟩]
  refine congrArg (· + arrB V c (ix2 0 j)) (Finset.sum_congr rfl fun k _ => ?_)
  refine congrArg (· * arrH V c (ix2 k j)) ?_
  refine (pay3_apply (ab V c ⟨11, h⟩) (acc V c 11 h) i k).trans ?_
  unfold Cert.Spec.adjA
  rw [ab_eq V c ⟨11, h⟩, acc_last V c h i k]

theorem out_last_eq (h : 11 < cfg0.N) :
    (outsAt0 V c 11 h).1 = Cert.Spec.hvArr (arrT V c) (arrD V c) (arrA V c) (arrH V c) (arrB V c) := by
  funext j
  obtain ⟨i, q, rfl⟩ : ∃ (i : Fin 2048) (q : Fin 64), j = ix2 i q := ⟨j 0, j 1, eq_ix2 j⟩
  exact out_last_apply V c h i q

theorem flushed_eq (t : Fin cfg0.N) (hf : (cfg0.win 5).flush t = true) :
    (dat0 V c).flushed 5 t = ((cfg0.win 5).blk t).view.read (Elt Ideal)
      (Cert.Spec.hvArr (arrT V c) (arrD V c) (arrA V c) (arrH V c) (arrB V c)) := by
  have hN : cfg0.N = 12 := N_0
  have h11 : t.val = 11 := by have := (flush0_5 t).mp hf; have := t.isLt; omega
  obtain rfl : t = t0_11 := Fin.ext h11
  show (cfg0.win 5).cut (grid0.coords t0_11) ((dat0 V c).after 5 t0_11) = _
  have e : (outsAt0 V c t0_11.val t0_11.isLt).1 = Cert.Spec.hvArr (arrT V c) (arrD V c) (arrA V c) (arrH V c) (arrB V c) :=
    out_last_eq V c t0_11.isLt
  rw [after0_5, e]
  have hz' : (fun a => win0_5.index t0_11 a * main_v6.ty.shape.size a) = fun _ => 0 := funext fun a => by fin_cases a <;> decide +kernel
  exact (Memref.read_access_unit_zero (Elt Ideal) main_v6 hz' (fun a => by rw [congrFun hz' a]; simp) _).symm

end Value

end Cert.KernelIdeal.Val.R0

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem final0 : ((dat0 (F := Ideal) V c).arrAt 5 cfg0.N) = Cert.Spec.hvArr (V c main_arg4) (V c main_v4) (V c main_arg2) (V c main_v3) (V c main_v5) :=
  (dat0 V c).arrAt_eq_of_cover 5 _ (R0.flushed_eq V c) fun i =>
    ⟨t0_11, (flush0_5 t0_11).mpr rfl, by
      show i ∈ ((View.whole main_v6).slice (win0_5.rect t0_11)).set
      rw [View.set_slice_whole, Rect.mem_set_unit]
      intro a
      have h0 : (i 0 : Nat) < 2048 := (i 0).isLt
      have h1 : (i 1 : Nat) < 64 := (i 1).isLt
      match a with
      | ⟨0, _⟩ => show win0_5.index t0_11 0 * win0_5.size 0 ≤ (i 0 : Nat) ∧ (i 0 : Nat) < win0_5.index t0_11 0 * win0_5.size 0 + win0_5.xsize (grid0.coords t0_11) 0
                  rw [show win0_5.index t0_11 0 * win0_5.size 0 = 0 from by decide +kernel, show win0_5.xsize (grid0.coords t0_11) 0 = 2048 from by decide +kernel]; omega
      | ⟨1, _⟩ => show win0_5.index t0_11 1 * win0_5.size 1 ≤ (i 1 : Nat) ∧ (i 1 : Nat) < win0_5.index t0_11 1 * win0_5.size 1 + win0_5.xsize (grid0.coords t0_11) 1
                  rw [show win0_5.index t0_11 1 * win0_5.size 1 = 0 from by decide +kernel, show win0_5.xsize (grid0.coords t0_11) 1 = 64 from by decide +kernel]; omega⟩

end Cert.KernelIdeal.Val

end
-- ==== Proof.KI.V1Pay.lean ====
import proofs.«158961_j3762391351854_1_alg».proof.Proof.Gen.KernelIdeal.Skeleton
import proofs.«158961_j3762391351854_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Val.R1

open Cert.KernelIdeal Cert.KernelIdeal.Gen
open Idealize.ShloMosaic Idealize.ShloMosaic.ValueIdx

theorem lhs_gram_0 (j : S768x768.Idx) (q : dot_S2048x768_S2048x768_S768x768_0_0_1_1_n_n.contr.Idx) :
    (dot_S2048x768_S2048x768_S768x768_0_0_1_1_n_n.lhsIdx j q 0).val = (q ⟨0, by decide⟩).val :=
  dot_S2048x768_S2048x768_S768x768_0_0_1_1_n_n.lhsIdx_val_of_single rfl j q
theorem lhs_gram_1 (j : S768x768.Idx) (q : dot_S2048x768_S2048x768_S768x768_0_0_1_1_n_n.contr.Idx) :
    (dot_S2048x768_S2048x768_S768x768_0_0_1_1_n_n.lhsIdx j q 1).val = (j 0).val := by
  unfold DotDims.lhsIdx
  rw [dif_neg (show ¬(1 : Fin S2048x768.rank) ∈ dot_S2048x768_S2048x768_S768x768_0_0_1_1_n_n.lhsBatch by decide), dif_pos (show (1 : Fin S2048x768.rank) ∈ dot_S2048x768_S2048x768_S768x768_0_0_1_1_n_n.lhsNonContracting by decide)]
  rfl
theorem rhs_gram_0 (j : S768x768.Idx) (q : dot_S2048x768_S2048x768_S768x768_0_0_1_1_n_n.contr.Idx) :
    (dot_S2048x768_S2048x768_S768x768_0_0_1_1_n_n.rhsIdx j q 0).val = (q ⟨0, by decide⟩).val :=
  dot_S2048x768_S2048x768_S768x768_0_0_1_1_n_n.rhsIdx_val_of_single rfl j q
theorem rhs_gram_1 (j : S768x768.Idx) (q : dot_S2048x768_S2048x768_S768x768_0_0_1_1_n_n.contr.Idx) :
    (dot_S2048x768_S2048x768_S768x768_0_0_1_1_n_n.rhsIdx j q 1).val = (j 1).val := by
  unfold DotDims.rhsIdx
  rw [dif_neg (show ¬(1 : Fin S2048x768.rank) ∈ dot_S2048x768_S2048x768_S768x768_0_0_1_1_n_n.rhsBatch by decide), dif_pos (show (1 : Fin S2048x768.rank) ∈ dot_S2048x768_S2048x768_S768x768_0_0_1_1_n_n.rhsNonContracting by decide)]
  rfl

theorem gram_apply (l r : FVec Ideal S2048x768 .bf16) (a b : Fin 768) :
    matmul dot_S2048x768_S2048x768_S768x768_0_0_1_1_n_n none l r (constant (F := Ideal) S768x768 .f32 0x00000000#32) (ix2 a b)
      = ∑ n : Fin 2048, l (ix2 n a) * r (ix2 n b) := by
  refine (Ideal.matmul_constant_zero_apply dot_S2048x768_S2048x768_S768x768_0_0_1_1_n_n none l r (ix2 a b)).trans ?_
  rw [← Equiv.sum_comp (contrEquiv1 dot_S2048x768_S2048x768_S768x768_0_0_1_1_n_n 2048 rfl rfl).symm]
  refine Finset.sum_congr rfl fun k _ => ?_
  have hk := contrEquiv1_symm_val dot_S2048x768_S2048x768_S768x768_0_0_1_1_n_n 2048 rfl rfl k
  have el : dot_S2048x768_S2048x768_S768x768_0_0_1_1_n_n.lhsIdx (ix2 a b) ((contrEquiv1 dot_S2048x768_S2048x768_S768x768_0_0_1_1_n_n 2048 rfl rfl).symm k) = ix2 k a := funext fun x => Fin.ext (by
    match x with
    | ⟨0, _⟩ => exact (lhs_gram_0 _ _).trans hk
    | ⟨1, _⟩ => exact lhs_gram_1 _ _)
  have er : dot_S2048x768_S2048x768_S768x768_0_0_1_1_n_n.rhsIdx (ix2 a b) ((contrEquiv1 dot_S2048x768_S2048x768_S768x768_0_0_1_1_n_n 2048 rfl rfl).symm k) = ix2 k b := funext fun x => Fin.ext (by
    match x with
    | ⟨0, _⟩ => exact (rhs_gram_0 _ _).trans hk
    | ⟨1, _⟩ => exact rhs_gram_1 _ _)
  rw [el, er]

theorem diag_word (p q : ℕ) (hp : p < 8) (hq : q < 8) (a b : Fin 768) :
    IntOp.cmpi .eq (IntOp.addi (Scalar.muli (BitVec.ofNat 32 p) 768#32) (BitVec.ofNat 32 a.val))
        (IntOp.addi (Scalar.muli (BitVec.ofNat 32 q) 768#32) (BitVec.ofNat 32 b.val)) = 1#1
      ↔ 768 * p + a.val = 768 * q + b.val := by
  have ha := a.isLt
  have hb := b.isLt
  have e : ∀ (p : ℕ) (a : ℕ), p < 8 → a < 768 → IntOp.addi (Scalar.muli (BitVec.ofNat 32 p) 768#32) (BitVec.ofNat 32 a) = BitVec.ofNat 32 (768 * p + a) := by
    intro p a hp ha
    apply BitVec.eq_of_toNat_eq
    simp only [IntOp.addi, Scalar.muli, IntOp.muli, BitVec.toNat_add, BitVec.toNat_mul, BitVec.toNat_ofNat]
    omega
  rw [e p a.val hp ha, e q b.val hq hb]
  show BitVec.ofBool (BitVec.ofNat 32 (768 * p + a.val) == BitVec.ofNat 32 (768 * q + b.val)) = 1#1 ↔ _
  constructor
  · intro h
    by_contra hne
    have hf : (BitVec.ofNat 32 (768 * p + a.val) == BitVec.ofNat 32 (768 * q + b.val)) = false := by
      rw [beq_eq_false_iff_ne]
      intro heq
      have := congrArg BitVec.toNat heq
      simp only [BitVec.toNat_ofNat] at this
      omega
    rw [hf] at h
    exact absurd h (by decide)
  · intro h
    rw [h, beq_self_eq_true]
    rfl

theorem bcast_col {α : Type} (v : S2048x1.Idx → α) (n : Fin 2048) (a : Fin 768) :
    broadcastTo S2048x768 v broadcasts_S2048x1_S2048x768 (ix2 n a) = v (ix2 n (0 : Fin 1)) := by
  refine broadcastTo_apply v broadcasts_S2048x1_S2048x768 (ix2 n a) (ix2 n (0 : Fin 1)) fun ax => ?_
  match ax with
  | ⟨0, _⟩ =>
    show n.val = if (2048 : ℕ) = 1 then 0 else n.val
    rw [if_neg (by decide)]
  | ⟨1, _⟩ =>
    show (0 : ℕ) = if (1 : ℕ) = 1 then 0 else a.val
    rw [if_pos rfl]

theorem pay2_apply (i : grid1.Coords) (v8 v11 : Vec Ideal S2048x768 .bf16) (v13 : Vec Ideal S2048x1 .f32) (v26 : Vec Ideal S768x768 .f32) (a b : Fin 768) :
    k1_pay2 (F := Ideal) i v8 v11 v13 v26 (ix2 a b)
      = if 768 * (i 1).val + a.val = 768 * (i 0).val + b.val then v26 (ix2 a b)
        else (∑ n : Fin 2048, (v8 (ix2 n a) * v13 (ix2 n 0)) * v11 (ix2 n b)) * v26 (ix2 a b) := by
  have h0 : (i 0).val < 8 := (i 0).isLt
  have h1 : (i 1).val < 8 := (i 1).isLt
  have hg : matmul (φ₁ := FTy.bf16) (φ₂ := FTy.bf16) dot_S2048x768_S2048x768_S768x768_0_0_1_1_n_n none
      (mulf v8 (broadcastTo S2048x768 (truncf FTy.bf16 v13 bitsLt_bf16_f32) broadcasts_S2048x1_S2048x768)) v11
      (constant (F := Ideal) S768x768 FTy.f32 0x00000000#32) (ix2 a b)
        = ∑ n : Fin 2048, (v8 (ix2 n a) * v13 (ix2 n 0)) * v11 (ix2 n b) := by
    refine (gram_apply _ _ a b).trans (Finset.sum_congr rfl fun n _ => ?_)
    rw [mulf_apply, bcast_col, truncf_apply]
  unfold k1_pay2
  simp only [select_apply, mulf_apply, cmpi, addi, broadcast_apply, shapeCast_self]
  rw [hg, iota_single_apply, iota_single_apply]
  unfold Scalar.select
  exact if_congr (diag_word _ _ h1 h0 a b) rfl rfl

theorem lift_col (b : Fin 768) (k : Fin (S768x768.size 0)) :
    reduces_S768x768_S768.lift (ix1 b) k = ix2 (⟨k.val, k.isLt⟩ : Fin 768) b := by
  funext c; apply Fin.ext
  fin_cases c <;> rfl

theorem colmax_apply (x : FVec Ideal S768x768 .f32) (hφ : FKind.Formats FTy.f32) (hacc : (0xFF800000#32 : BitVec 32) = FKind.maximumf.neutral FTy.f32 hφ) (b : Fin 768) :
    multiReduction (F := Ideal) .maximumf [0] S768 x 0xFF800000#32 reduces_S768x768_S768 hφ hacc (ix1 b)
      = (Finset.univ : Finset (Fin 768)).fold max Cert.Spec.negInf fun a => x (ix2 a b) := by
  refine (Ideal.multiReduction_maximumf_single x 0xFF800000#32 reduces_S768x768_S768 hφ hacc (ix1 b)).trans ?_
  exact congrArg (fun f => Finset.fold max Cert.Spec.negInf f (Finset.univ : Finset (Fin 768))) (funext fun k => congrArg x (lift_col b k))

theorem pay3_apply (i : grid1.Coords) (v8 v11 : Vec Ideal S2048x768 .bf16) (v13 : Vec Ideal S2048x1 .f32) (v26 : Vec Ideal S768x768 .f32)
    (v32 : Vec Ideal S1x768 .f32) (z : Fin 1) (b : Fin 768) :
    k1_pay3 (F := Ideal) i v8 v11 v13 v26 v32 (ix2 z b)
      = max (v32 (ix2 z b)) ((Finset.univ : Finset (Fin 768)).fold max Cert.Spec.negInf fun a => k1_pay2 (F := Ideal) i v8 v11 v13 v26 (ix2 a b)) := by
  unfold k1_pay3
  simp only [maximumf_apply, shapeCast_self]
  exact congrArg (max _) ((shapeCast_a_1a_apply _ _ z b).trans (colmax_apply _ _ _ b))

end Cert.KernelIdeal.Val.R1

end
-- ==== Proof.KI.V1.lean ====
import proofs.«158961_j3762391351854_1_alg».proof.Proof.KI.R1
import proofs.«158961_j3762391351854_1_alg».proof.Proof.KI.V1Pay
import proofs.«158961_j3762391351854_1_alg».proof.Proof.LibBlocks
import proofs.«158961_j3762391351854_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.Val.R1

open Cert.KernelIdeal Cert.KernelIdeal.Gen Cert.KernelIdeal.Fr
open Idealize.ShloMosaic Idealize.ShloMosaic.TcCoe Idealize.SL.Sem Idealize.ShloMosaic.Tactic
open Idealize.ShloMosaic.Pipeline (Dat)
open Idealize.ShloMosaic.ValueIdx

section Pieces
variable {F : FTy → Type} [FloatOps F]

theorem hz2 : (![0, 0] : Fin 2 → Nat) = fun _ => 0 := funext fun a => by fin_cases a <;> rfl

abbrev colsL (i : grid1.Coords) (x0 : Vec F S2048x6144 .bf16) : Vec F S2048x768 .bf16 :=
  View.ld x0 (Rect.unit (s := S2048x6144) (k1_off1 i) S2048x768.size (k1_off1_inb i))
abbrev colsR (i : grid1.Coords) (x0 : Vec F S2048x6144 .bf16) : Vec F S2048x768 .bf16 :=
  View.ld x0 (Rect.unit (s := S2048x6144) (k1_off2 i) S2048x768.size (k1_off2_inb i))

section
variable (c : Dev nD) (i : grid1.Coords) (arg2 : Memref sig .tc .vmem S2048x6144 .bf16) (harg2 : arg2.IsWhole) (arg3 : Memref sig .tc .vmem S2048x1 .f32) (harg3 : arg3.IsWhole) (arg4 : Memref sig .tc .vmem S768x768 .f32) (harg4 : arg4.IsWhole) (arg5 : Memref sig .tc .vmem S768x768 .f32) (harg5 : arg5.IsWhole) (arg6 : Memref sig .tc .vmem S1x768 .f32) (harg6 : arg6.IsWhole)

theorem outA3_eq (hc0 : cond1_0 i)
    (x0 : Vec F S2048x6144 .bf16) (x1 : Vec F S2048x1 .f32) (x2 : Vec F S768x768 .f32) :
    out1_A_3 c i arg2 harg2 arg3 harg3 arg4 harg4 arg5 harg5 arg6 harg6 hc0 x0 x1 x2 = k1_pay2 i (colsL i x0) (colsR i x0) x1 x2 := by
  unfold out1_A_3
  rw [View.read_writes_eq_canon _ _ _ (cover1_A_3 c i arg2 harg2 arg3 harg3 arg4 harg4 arg5 harg5 arg6 harg6 hc0 x0 x1 x2)]
  unfold kernelRun1_A
  dsimp only
  rw [View.canon_unit_zero hz2]
  simp only [View.readAt_eq_ld, harg2.read_unread, harg3.read_unread, harg4.read_unread, View.ld_unit_zero (S := S2048x1) hz2, View.ld_unit_zero (S := S768x768) hz2]

theorem outA4_eq (hc0 : cond1_0 i)
    (x0 : Vec F S2048x6144 .bf16) (x1 : Vec F S2048x1 .f32) (x2 : Vec F S768x768 .f32) :
    out1_A_4 c i arg2 harg2 arg3 harg3 arg4 harg4 arg5 harg5 arg6 harg6 hc0 x0 x1 x2 = k1_pay3 i (colsL i x0) (colsR i x0) x1 x2 k1_pay1 := by
  unfold out1_A_4
  rw [View.read_writes_eq_canon _ _ _ (cover1_A_4 c i arg2 harg2 arg3 harg3 arg4 harg4 arg5 harg5 arg6 harg6 hc0 x0 x1 x2)]
  unfold kernelRun1_A
  dsimp only
  sl_unfold_words
  rw [View.canon_cons_unit_zero (S := S1x768) hz2, View.readCov_unit_zero (S := S1x768) _ hz2]
  simp only [View.readAt_eq_ld, harg2.read_unread, harg3.read_unread, harg4.read_unread, View.ld_unit_zero (S := S2048x1) hz2, View.ld_unit_zero (S := S768x768) hz2]
  rfl

theorem outB3_eq (hc0 : ¬cond1_0 i)
    (x0 : Vec F S2048x6144 .bf16) (x1 : Vec F S2048x1 .f32) (x2 : Vec F S768x768 .f32) (xo4 : Vec F S1x768 .f32) :
    out1_B_3 c i arg2 harg2 arg3 harg3 arg4 harg4 arg5 harg5 arg6 harg6 hc0 x0 x1 x2 xo4 = k1_pay2 i (colsL i x0) (colsR i x0) x1 x2 := by
  unfold out1_B_3
  rw [View.read_writes_eq_canon _ _ _ (cover1_B_3 c i arg2 harg2 arg3 harg3 arg4 harg4 arg5 harg5 arg6 harg6 hc0 x0 x1 x2 xo4)]
  unfold kernelRun1_B
  dsimp only
  rw [View.canon_unit_zero hz2]
  simp only [View.readAt_eq_ld, harg2.read_unread, harg3.read_unread, harg4.read_unread, View.ld_unit_zero (S := S2048x1) hz2, View.ld_unit_zero (S := S768x768) hz2]

theorem outB4_eq (hc0 : ¬cond1_0 i)
    (x0 : Vec F S2048x6144 .bf16) (x1 : Vec F S2048x1 .f32) (x2 : Vec F S768x768 .f32) (xo4 : Vec F S1x768 .f32) :
    out1_B_4 c i arg2 harg2 arg3 harg3 arg4 harg4 arg5 harg5 arg6 harg6 hc0 x0 x1 x2 xo4 = k1_pay3 i (colsL i x0) (colsR i x0) x1 x2 xo4 := by
  unfold out1_B_4
  rw [View.read_writes_eq_canon _ _ _ (cover1_B_4 c i arg2 harg2 arg3 harg3 arg4 harg4 arg5 harg5 arg6 harg6 hc0 x0 x1 x2 xo4)]
  unfold kernelRun1_B
  dsimp only
  rw [View.canon_unit_zero hz2]
  simp only [View.readAt_eq_ld, harg2.read_unread, harg3.read_unread, harg4.read_unread, harg6.read_unread, View.ld_unit_zero (S := S2048x1) hz2, View.ld_unit_zero (S := S768x768) hz2, View.ld_unit_zero (S := S1x768) hz2]
end

end Pieces

theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val % 8 ∧ win1_2.index t (1 : Fin 2) = t.val / 8
    ∧ win1_3.index t (0 : Fin 2) = t.val % 8 ∧ win1_3.index t (1 : Fin 2) = t.val / 8
    ∧ win1_4.index t (0 : Fin 2) = 0 ∧ win1_4.index t (1 : Fin 2) = t.val / 8
    ∧ ((grid1.coords t) 0).val = t.val / 8 ∧ ((grid1.coords t) 1).val = t.val % 8
    ∧ k1_off1 (grid1.coords t) = ![0, 768 * (t.val % 8)] ∧ k1_off2 (grid1.coords t) = ![0, 768 * (t.val / 8)] :=
  (by decide +kernel : ∀ t : Fin grid1.N, _)

theorem h6144 : 8 * 768 = 6144 := by norm_num

def tiOf (t : Fin cfg1.N) : Fin 8 := ⟨t.val % 8, Nat.mod_lt _ (by decide)⟩
def tjOf (t : Fin cfg1.N) : Fin 8 := ⟨t.val / 8, by have h : t.val < 64 := lt_of_lt_of_eq t.isLt N_1; omega⟩
abbrev rowOf (t : Fin cfg1.N) (a : Fin 768) : Fin 6144 := Cert.LibBlocks.blk h6144 (tiOf t) a
abbrev colOf (t : Fin cfg1.N) (b : Fin 768) : Fin 6144 := Cert.LibBlocks.blk h6144 (tjOf t) b

section Value

variable (V : (c : Dev nD) → (b : Ref sig .tc) → Buf (Elt Ideal) ((c : Thread nD τ).loc b)) (c : Dev nD)

theorem colsL_apply (t : Fin cfg1.N) (n : Fin 2048) (a : Fin 768) :
    colsL (F := Ideal) (grid1.coords t) (iblk1 V c 0 t) (ix2 n a) = (V c main_v13 : S2048x6144.Idx → EReal) (ix2 n (rowOf t a)) := by
  obtain ⟨e00, e01, -, -, -, -, -, -, -, -, -, -, eo1, -⟩ := idx_facts t
  show (iblk1 V c 0 t : S2048x6144.Idx → EReal) ((Rect.unit (s := S2048x6144) (k1_off1 (grid1.coords t)) S2048x768.size (k1_off1_inb _)).idx (ix2 n a)) = _
  unfold iblk1
  rw [View.read_apply]
  show V c main_v13 _ = V c main_v13 _
  congr 1
  funext ax; apply Fin.ext
  match ax with
  | ⟨0, _⟩ =>
    show win1_0.index t 0 * 2048 + 1 * (k1_off1 (grid1.coords t) 0 + 1 * n.val) = n.val
    rw [e00, eo1]
    show 0 * 2048 + 1 * (0 + 1 * n.val) = n.val
    omega
  | ⟨1, _⟩ =>
    show win1_0.index t 1 * 6144 + 1 * (k1_off1 (grid1.coords t) 1 + 1 * a.val) = 768 * (t.val % 8) + a.val
    rw [e01, eo1]
    show 0 * 6144 + 1 * (768 * (t.val % 8) + 1 * a.val) = 768 * (t.val % 8) + a.val
    omega

theorem colsR_apply (t : Fin cfg1.N) (n : Fin 2048) (b : Fin 768) :
    colsR (F := Ideal) (grid1.coords t) (iblk1 V c 0 t) (ix2 n b) = (V c main_v13 : S2048x6144.Idx → EReal) (ix2 n (colOf t b)) := by
  obtain ⟨e00, e01, -, -, -, -, -, -, -, -, -, -, -, eo2⟩ := idx_facts t
  show (iblk1 V c 0 t : S2048x6144.Idx → EReal) ((Rect.unit (s := S2048x6144) (k1_off2 (grid1.coords t)) S2048x768.size (k1_off2_inb _)).idx (ix2 n b)) = _
  unfold iblk1
  rw [View.read_apply]
  show V c main_v13 _ = V c main_v13 _
  congr 1
  funext ax; apply Fin.ext
  match ax with
  | ⟨0, _⟩ =>
    show win1_0.index t 0 * 2048 + 1 * (k1_off2 (grid1.coords t) 0 + 1 * n.val) = n.val
    rw [e00, eo2]
    show 0 * 2048 + 1 * (0 + 1 * n.val) = n.val
    omega
  | ⟨1, _⟩ =>
    show win1_0.index t 1 * 6144 + 1 * (k1_off2 (grid1.coords t) 1 + 1 * b.val) = 768 * (t.val / 8) + b.val
    rw [e01, eo2]
    show 0 * 6144 + 1 * (768 * (t.val / 8) + 1 * b.val) = 768 * (t.val / 8) + b.val
    omega

theorem dv_apply (t : Fin cfg1.N) (n : Fin 2048) (z : Fin 1) :
    (iblk1 V c 1 t : S2048x1.Idx → EReal) (ix2 n z) = (V c main_v10 : S2048x1.Idx → EReal) (ix2 n z) := by
  obtain ⟨-, -, e10, e11, -⟩ := idx_facts t
  unfold iblk1
  rw [View.read_apply]
  show V c main_v10 _ = V c main_v10 _
  congr 1
  funext ax; apply Fin.ext
  match ax with
  | ⟨0, _⟩ =>
    show win1_1.index t 0 * 2048 + 1 * n.val = n.val
    rw [e10]; omega
  | ⟨1, _⟩ =>
    show win1_1.index t 1 * 1 + 1 * z.val = z.val
    rw [e11]; omega

theorem adj_apply (t : Fin cfg1.N) (a b : Fin 768) :
    (iblk1 V c 2 t : S768x768.Idx → EReal) (ix2 a b) = (V c main_arg3 : S6144x6144.Idx → EReal) (ix2 (rowOf t a) (colOf t b)) := by
  obtain ⟨-, -, -, -, e20, e21, -⟩ := idx_facts t
  unfold iblk1
  rw [View.read_apply]
  show V c main_arg3 _ = V c main_arg3 _
  congr 1
  funext ax; apply Fin.ext
  match ax with
  | ⟨0, _⟩ =>
    show win1_2.index t 0 * 768 + 1 * a.val = 768 * (t.val % 8) + a.val
    rw [e20]; omega
  | ⟨1, _⟩ =>
    show win1_2.index t 1 * 768 + 1 * b.val = 768 * (t.val / 8) + b.val
    rw [e21]; omega

theorem tile_apply (t : Fin cfg1.N) (a b : Fin 768) :
    k1_pay2 (F := Ideal) (grid1.coords t) (colsL (grid1.coords t) (iblk1 V c 0 t)) (colsR (grid1.coords t) (iblk1 V c 0 t)) (iblk1 V c 1 t) (iblk1 V c 2 t) (ix2 a b)
      = Cert.Spec.aAeAt (V c main_v13) (V c main_v10) (V c main_arg3) (rowOf t a) (colOf t b) := by
  obtain ⟨-, -, -, -, -, -, -, -, -, -, g0, g1, -, -⟩ := idx_facts t
  refine (pay2_apply (grid1.coords t) (colsL (grid1.coords t) (iblk1 V c 0 t)) (colsR (grid1.coords t) (iblk1 V c 0 t)) (iblk1 V c 1 t) (iblk1 V c 2 t) a b).trans ?_
  unfold Cert.Spec.aAeAt Cert.Spec.gram2
  refine if_congr ?_ (adj_apply V c t a b) (congrArg₂ (· * ·) (Finset.sum_congr rfl fun n _ => ?_) (adj_apply V c t a b))
  · rw [g0, g1]
    constructor
    · intro h; exact Fin.ext h
    · intro h; exact congrArg Fin.val h
  · rw [colsL_apply V c t n a, colsR_apply V c t n b, dv_apply V c t n 0]

theorem tile_at (t : Fin cfg1.N) :
    (outsAt1 V c t.val t.isLt).1 = fun y : S768x768.Idx => Cert.Spec.aAeAt (V c main_v13) (V c main_v10) (V c main_arg3) (rowOf t (y 0)) (colOf t (y 1)) := by
  by_cases h0 : t.val % 8 = 0
  · rw [outsAt1_A V c t h0]
    dsimp only
    refine (outA3_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)).trans ?_
    funext y
    obtain ⟨a, b, rfl⟩ : ∃ (a b : Fin 768), y = ix2 a b := ⟨y 0, y 1, eq_ix2 y⟩
    exact tile_apply V c t a b
  · rw [outsAt1_B V c t h0]
    dsimp only
    refine (outB3_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) _).trans ?_
    funext y
    obtain ⟨a, b, rfl⟩ : ∃ (a b : Fin 768), y = ix2 a b := ⟨y 0, y 1, eq_ix2 y⟩
    exact tile_apply V c t a b

def tileMax (t : Fin cfg1.N) (b : Fin 768) : EReal :=
  (Finset.univ : Finset (Fin 768)).fold max Cert.Spec.negInf fun a => Cert.Spec.aAeAt (V c main_v13) (V c main_v10) (V c main_arg3) (rowOf t a) (colOf t b)

theorem cm_first (t : Fin cfg1.N) (h0 : t.val % 8 = 0) (z : Fin 1) (b : Fin 768) :
    (outsAt1 V c t.val t.isLt).2 (ix2 z b) = max Cert.Spec.negInf (tileMax V c t b) := by
  rw [outsAt1_A V c t h0]
  dsimp only
  refine (congrFun (outA4_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) (ix2 z b)).trans ?_
  have e := pay3_apply (grid1.coords t) (colsL (F := Ideal) (grid1.coords t) (iblk1 V c 0 t)) (colsR (F := Ideal) (grid1.coords t) (iblk1 V c 0 t)) (iblk1 V c 1 t) (iblk1 V c 2 t) (k1_pay1 (F := Ideal)) z b
  refine e.trans ?_
  refine congrArg₂ max rfl ?_
  exact congrArg (fun f => Finset.fold max Cert.Spec.negInf f (Finset.univ : Finset (Fin 768))) (funext fun a => tile_apply V c t a b)

theorem cm_next (t : Fin cfg1.N) (h0 : ¬t.val % 8 = 0) (z : Fin 1) (b : Fin 768) :
    (outsAt1 V c t.val t.isLt).2 (ix2 z b)
      = max ((outsAt1 V c (t.val - 1) (Nat.lt_of_le_of_lt (Nat.sub_le _ _) t.isLt)).2 (ix2 z b)) (tileMax V c t b) := by
  rw [outsAt1_B V c t h0]
  dsimp only
  refine (congrFun (outB4_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).2) (ix2 z b)).trans ?_
  refine (pay3_apply (grid1.coords t) (colsL (grid1.coords t) (iblk1 V c 0 t)) (colsR (grid1.coords t) (iblk1 V c 0 t)) (iblk1 V c 1 t) (iblk1 V c 2 t) (outsAt1 V c (t.val - 1) (Nat.lt_of_le_of_lt (Nat.sub_le _ _) t.isLt)).2 z b).trans ?_
  refine congrArg₂ max rfl ?_
  exact congrArg (fun f => Finset.fold max Cert.Spec.negInf f (Finset.univ : Finset (Fin 768))) (funext fun a => tile_apply V c t a b)

theorem outsAt1_congr (n n' : ℕ) (h : n < cfg1.N) (h' : n' < cfg1.N) (e : n = n') : outsAt1 V c n h = outsAt1 V c n' h' := by
  subst e; rfl

theorem cm_last (t : Fin cfg1.N) (h7 : t.val % 8 = 7) (z : Fin 1) (b : Fin 768) :
    (outsAt1 V c t.val t.isLt).2 (ix2 z b) = Cert.Spec.colMaxAt (Cert.Spec.aAeArr (V c main_v13) (V c main_v10) (V c main_arg3)) (colOf t b) := by
  have hN : cfg1.N = 64 := N_1
  have ht : t.val < 64 := lt_of_lt_of_eq t.isLt hN
  have hb : ∀ s, s < 8 → 8 * (t.val / 8) + s < cfg1.N := fun s hs => lt_of_lt_of_eq (show 8 * (t.val / 8) + s < 64 by omega) hN.symm
  let S : ℕ → EReal := fun s => if h : s < 8 then (outsAt1 V c (8 * (t.val / 8) + s) (hb s h)).2 (ix2 z b) else Cert.Spec.negInf
  let B : ℕ → EReal := fun s => if h : s < 8 then tileMax V c ⟨8 * (t.val / 8) + s, hb s h⟩ b else Cert.Spec.negInf
  have hS7 : S (8 - 1) = (outsAt1 V c t.val t.isLt).2 (ix2 z b) := by
    show (if h : 7 < 8 then (outsAt1 V c (8 * (t.val / 8) + 7) (hb 7 h)).2 (ix2 z b) else Cert.Spec.negInf) = _
    rw [dif_pos (by decide)]
    rw [outsAt1_congr V c (8 * (t.val / 8) + 7) t.val _ t.isLt (by omega)]
  rw [← hS7]
  refine (Cert.LibBlocks.acc_max_blocks h6144 Cert.Spec.negInf (fun x : Fin 6144 => Cert.Spec.aAeAt (V c main_v13) (V c main_v10) (V c main_arg3) x (colOf t b)) S B ?_ ?_ ?_ (by decide)).trans rfl
  · show (if h : 0 < 8 then _ else _) = max Cert.Spec.negInf (if h : 0 < 8 then _ else _)
    rw [dif_pos (by decide), dif_pos (by decide)]
    exact cm_first V c ⟨8 * (t.val / 8) + 0, hb 0 (by decide)⟩ (by show (8 * (t.val / 8) + 0) % 8 = 0; omega) z b
  · intro s hs
    show (if h : s + 1 < 8 then _ else _) = max (if h : s < 8 then _ else _) (if h : s + 1 < 8 then _ else _)
    rw [dif_pos hs, dif_pos (by omega : s < 8), dif_pos hs]
    refine (cm_next V c ⟨8 * (t.val / 8) + (s + 1), hb (s + 1) hs⟩ (by show ¬(8 * (t.val / 8) + (s + 1)) % 8 = 0; omega) z b).trans ?_
    refine congrArg₂ max ?_ rfl
    exact congrFun (congrArg Prod.snd (outsAt1_congr V c _ _ _ _ (by show 8 * (t.val / 8) + (s + 1) - 1 = 8 * (t.val / 8) + s; omega))) (ix2 z b)
  · intro s
    show (if h : s.val < 8 then tileMax V c ⟨8 * (t.val / 8) + s.val, hb s.val h⟩ b else Cert.Spec.negInf) = _
    rw [dif_pos s.isLt]
    unfold tileMax
    refine congrArg (fun f => Finset.fold max Cert.Spec.negInf f (Finset.univ : Finset (Fin 768))) (funext fun a => ?_)
    have e1 : rowOf ⟨8 * (t.val / 8) + s.val, hb s.val s.isLt⟩ a = Cert.LibBlocks.blk h6144 s a :=
      Fin.ext (by show 768 * ((8 * (t.val / 8) + s.val) % 8) + a.val = 768 * s.val + a.val; have := s.isLt; omega)
    have e2 : colOf ⟨8 * (t.val / 8) + s.val, hb s.val s.isLt⟩ b = colOf t b :=
      Fin.ext (by show 768 * ((8 * (t.val / 8) + s.val) / 8) + b.val = 768 * (t.val / 8) + b.val; have := s.isLt; omega)
    rw [e1, e2]

theorem flushed3_eq (t : Fin cfg1.N) (hf : (cfg1.win 3).flush t = true) :
    (dat1 (F := Ideal) V c).flushed 3 t = ((cfg1.win 3).blk t).view.read (Elt Ideal) (Cert.Spec.aAeArr (V c main_v13) (V c main_v10) (V c main_arg3)) := by
  obtain ⟨-, -, -, -, -, -, e30, e31, -⟩ := idx_facts t
  show (cfg1.win 3).cut (grid1.coords t) ((dat1 (F := Ideal) V c).after 3 t) = _
  rw [after1_3, tile_at]
  funext y
  obtain ⟨a, b, rfl⟩ : ∃ (a b : Fin 768), y = ix2 a b := ⟨y 0, y 1, eq_ix2 y⟩
  rw [View.read_apply]
  show Cert.Spec.aAeAt (V c main_v13) (V c main_v10) (V c main_arg3) (rowOf t a) (colOf t b) = Cert.Spec.aAeAt (V c main_v13) (V c main_v10) (V c main_arg3) _ _
  congr 1
  · apply Fin.ext
    show 768 * (t.val % 8) + a.val = win1_3.index t 0 * 768 + 1 * a.val
    rw [e30]; omega
  · apply Fin.ext
    show 768 * (t.val / 8) + b.val = win1_3.index t 1 * 768 + 1 * b.val
    rw [e31]; omega

theorem mem_blk3 (t : Fin cfg1.N) (i : S6144x6144.Idx) :
    i ∈ ((cfg1.win 3).blk t).view.set ↔ ∀ a : Fin 2, win1_3.index t a * S768x768.size a ≤ (i a).val ∧ (i a).val < win1_3.index t a * S768x768.size a + S768x768.size a := by
  show i ∈ ((View.whole main_v14_0).slice (win1_3.rect t)).set ↔ _
  rw [View.set_slice_whole, Rect.mem_set_unit]
  exact Iff.rfl

theorem flushed4_eq (t : Fin cfg1.N) (hf : (cfg1.win 4).flush t = true) :
    (dat1 (F := Ideal) V c).flushed 4 t = ((cfg1.win 4).blk t).view.read (Elt Ideal) (Cert.Spec.colMaxArr (Cert.Spec.aAeArr (V c main_v13) (V c main_v10) (V c main_arg3))) := by
  have h7 : t.val % 8 = 7 := (flush1_4 t).mp hf
  obtain ⟨-, -, -, -, -, -, -, -, e40, e41, -⟩ := idx_facts t
  show (cfg1.win 4).cut (grid1.coords t) ((dat1 (F := Ideal) V c).after 4 t) = _
  rw [after1_4]
  funext y
  obtain ⟨z, b, rfl⟩ : ∃ (z : Fin 1) (b : Fin 768), y = ix2 z b := ⟨y 0, y 1, eq_ix2 y⟩
  rw [View.read_apply]
  refine (cm_last V c t h7 z b).trans ?_
  show Cert.Spec.colMaxAt (Cert.Spec.aAeArr (V c main_v13) (V c main_v10) (V c main_arg3)) (colOf t b) = Cert.Spec.colMaxAt (Cert.Spec.aAeArr (V c main_v13) (V c main_v10) (V c main_arg3)) _
  congr 1
  apply Fin.ext
  show 768 * (t.val / 8) + b.val = win1_4.index t 1 * 768 + 1 * b.val
  rw [e41]; omega

theorem mem_blk4 (t : Fin cfg1.N) (i : S1x6144.Idx) :
    i ∈ ((cfg1.win 4).blk t).view.set ↔ ∀ a : Fin 2, win1_4.index t a * S1x768.size a ≤ (i a).val ∧ (i a).val < win1_4.index t a * S1x768.size a + S1x768.size a := by
  show i ∈ ((View.whole main_v14_1).slice (win1_4.rect t)).set ↔ _
  rw [View.set_slice_whole, Rect.mem_set_unit]
  exact Iff.rfl

end Value

end Cert.KernelIdeal.Val.R1

namespace Cert.KernelIdeal.Val

open Cert.KernelIdeal Cert.KernelIdeal.Gen Cert.KernelIdeal.Fr Cert.KernelIdeal.Val.R1
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem final1_3 : ((dat1 (F := Ideal) V c).arrAt 3 cfg1.N) = Cert.Spec.aAeArr (V c main_v13) (V c main_v10) (V c main_arg3) :=
  (dat1 (F := Ideal) V c).arrAt_eq_of_cover 3 (Cert.Spec.aAeArr (V c main_v13) (V c main_v10) (V c main_arg3)) (flushed3_eq V c) fun i => by
    have hN : cfg1.N = 64 := N_1
    have hi0 : (i 0).val < 6144 := (i 0).isLt
    have hi1 : (i 1).val < 6144 := (i 1).isLt
    refine ⟨⟨8 * ((i 1).val / 768) + (i 0).val / 768, lt_of_lt_of_eq (by omega) hN.symm⟩, flush1_3 _, ?_⟩
    rw [mem_blk3]
    obtain ⟨-, -, -, -, -, -, e30, e31, -⟩ := idx_facts ⟨8 * ((i 1).val / 768) + (i 0).val / 768, lt_of_lt_of_eq (by omega) hN.symm⟩
    intro a
    match a with
    | ⟨0, _⟩ =>
      show win1_3.index _ 0 * 768 ≤ (i 0).val ∧ (i 0).val < win1_3.index _ 0 * 768 + 768
      rw [e30]
      show (8 * ((i 1).val / 768) + (i 0).val / 768) % 8 * 768 ≤ (i 0).val ∧ (i 0).val < (8 * ((i 1).val / 768) + (i 0).val / 768) % 8 * 768 + 768
      omega
    | ⟨1, _⟩ =>
      show win1_3.index _ 1 * 768 ≤ (i 1).val ∧ (i 1).val < win1_3.index _ 1 * 768 + 768
      rw [e31]
      show (8 * ((i 1).val / 768) + (i 0).val / 768) / 8 * 768 ≤ (i 1).val ∧ (i 1).val < (8 * ((i 1).val / 768) + (i 0).val / 768) / 8 * 768 + 768
      omega

theorem final1_4 : ((dat1 (F := Ideal) V c).arrAt 4 cfg1.N) = Cert.Spec.colMaxArr (Cert.Spec.aAeArr (V c main_v13) (V c main_v10) (V c main_arg3)) :=
  (dat1 (F := Ideal) V c).arrAt_eq_of_cover 4 (Cert.Spec.colMaxArr (Cert.Spec.aAeArr (V c main_v13) (V c main_v10) (V c main_arg3))) (flushed4_eq V c) fun i => by
    have hN : cfg1.N = 64 := N_1
    have hi0 : (i 0).val < 1 := (i 0).isLt
    have hi1 : (i 1).val < 6144 := (i 1).isLt
    refine ⟨⟨8 * ((i 1).val / 768) + 7, by rw [hN]; omega⟩, (flush1_4 _).mpr (by show (8 * ((i 1).val / 768) + 7) % 8 = 7; omega), ?_⟩
    rw [mem_blk4]
    obtain ⟨-, -, -, -, -, -, -, -, e40, e41, -⟩ := idx_facts ⟨8 * ((i 1).val / 768) + 7, by rw [hN]; omega⟩
    intro a
    match a with
    | ⟨0, _⟩ =>
      show win1_4.index _ 0 * 1 ≤ (i 0).val ∧ (i 0).val < win1_4.index _ 0 * 1 + 1
      rw [e40]
      omega
    | ⟨1, _⟩ =>
      show win1_4.index _ 1 * 768 ≤ (i 1).val ∧ (i 1).val < win1_4.index _ 1 * 768 + 768
      rw [e41]
      show (8 * ((i 1).val / 768) + 7) / 8 * 768 ≤ (i 1).val ∧ (i 1).val < (8 * ((i 1).val / 768) + 7) / 8 * 768 + 768
      omega

end Cert.KernelIdeal.Val

end
-- ==== Proof.KI.V2Pay.lean ====
import proofs.«158961_j3762391351854_1_alg».proof.Proof.Gen.KernelIdeal.Skeleton
import proofs.«158961_j3762391351854_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Val.R2

open Cert.KernelIdeal Cert.KernelIdeal.Gen
open Idealize.ShloMosaic Idealize.ShloMosaic.ValueIdx

theorem lhs_mm2_0 (i : S768x16.Idx) (q : dot_S768x768_S768x16_S768x16_1_0_0_1_n_n.contr.Idx) :
    (dot_S768x768_S768x16_S768x16_1_0_0_1_n_n.lhsIdx i q 0).val = (i 0).val := by
  unfold DotDims.lhsIdx
  rw [dif_neg (show ¬(0 : Fin S768x768.rank) ∈ dot_S768x768_S768x16_S768x16_1_0_0_1_n_n.lhsBatch by decide), dif_pos (show (0 : Fin S768x768.rank) ∈ dot_S768x768_S768x16_S768x16_1_0_0_1_n_n.lhsNonContracting by decide)]
  rfl
theorem lhs_mm2_1 (i : S768x16.Idx) (q : dot_S768x768_S768x16_S768x16_1_0_0_1_n_n.contr.Idx) :
    (dot_S768x768_S768x16_S768x16_1_0_0_1_n_n.lhsIdx i q 1).val = (q ⟨0, by decide⟩).val :=
  dot_S768x768_S768x16_S768x16_1_0_0_1_n_n.lhsIdx_val_of_single rfl i q
theorem rhs_mm2_0 (i : S768x16.Idx) (q : dot_S768x768_S768x16_S768x16_1_0_0_1_n_n.contr.Idx) :
    (dot_S768x768_S768x16_S768x16_1_0_0_1_n_n.rhsIdx i q 0).val = (q ⟨0, by decide⟩).val :=
  dot_S768x768_S768x16_S768x16_1_0_0_1_n_n.rhsIdx_val_of_single rfl i q
theorem rhs_mm2_1 (i : S768x16.Idx) (q : dot_S768x768_S768x16_S768x16_1_0_0_1_n_n.contr.Idx) :
    (dot_S768x768_S768x16_S768x16_1_0_0_1_n_n.rhsIdx i q 1).val = (i 1).val := by
  unfold DotDims.rhsIdx
  rw [dif_neg (show ¬(1 : Fin S768x16.rank) ∈ dot_S768x768_S768x16_S768x16_1_0_0_1_n_n.rhsBatch by decide), dif_pos (show (1 : Fin S768x16.rank) ∈ dot_S768x768_S768x16_S768x16_1_0_0_1_n_n.rhsNonContracting by decide)]
  rfl

theorem mm2_apply {φ₁ φ₂ : FTy} (l : FVec Ideal S768x768 φ₁) (r : FVec Ideal S768x16 φ₂) (p : Fin 768) (j : Fin 16) :
    FloatOps.matmul dot_S768x768_S768x16_S768x16_1_0_0_1_n_n none l r (constant (F := Ideal) S768x16 .f32 0x00000000#32) (ix2 p j)
      = ∑ e : Fin 768, l (ix2 p e) * r (ix2 e j) := by
  rw [Ideal.matmul_constant_zero_apply, ← Equiv.sum_comp (ValueIdx.contrEquiv1 dot_S768x768_S768x16_S768x16_1_0_0_1_n_n 768 rfl rfl).symm]
  refine Finset.sum_congr rfl fun k _ => ?_
  have hk := ValueIdx.contrEquiv1_symm_val dot_S768x768_S768x16_S768x16_1_0_0_1_n_n 768 rfl rfl k
  have el : dot_S768x768_S768x16_S768x16_1_0_0_1_n_n.lhsIdx (ix2 p j) ((ValueIdx.contrEquiv1 dot_S768x768_S768x16_S768x16_1_0_0_1_n_n 768 rfl rfl).symm k) = ix2 p k := funext fun a => Fin.ext (by
    match a with
    | ⟨0, _⟩ => exact lhs_mm2_0 _ _
    | ⟨1, _⟩ => exact (lhs_mm2_1 _ _).trans hk)
  have er : dot_S768x768_S768x16_S768x16_1_0_0_1_n_n.rhsIdx (ix2 p j) ((ValueIdx.contrEquiv1 dot_S768x768_S768x16_S768x16_1_0_0_1_n_n 768 rfl rfl).symm k) = ix2 k j := funext fun a => Fin.ext (by
    match a with
    | ⟨0, _⟩ => exact (rhs_mm2_0 _ _).trans hk
    | ⟨1, _⟩ => exact rhs_mm2_1 _ _)
  rw [el, er]

theorem pay1_apply (p : Fin 768) (j : Fin 16) : k2_pay1 (F := Ideal) (ix2 p j) = 0 := by
  unfold k2_pay1
  simp only [shapeCast_self]
  exact Ideal.ofBits_zero_f32

theorem pay2_apply (x0 : Vec Ideal S768x768 .f32) (x1 : Vec Ideal S1x768 .f32) (x2 : Vec Ideal S768x16 .f32) (acc : Vec Ideal S768x16 .f32)
    (p : Fin 768) (j : Fin 16) :
    k2_pay2 (F := Ideal) x0 x1 x2 acc (ix2 p j)
      = acc (ix2 p j) + ∑ e : Fin 768, Ideal.div (x0 (ix2 p e)) (x1 (ix2 (0 : Fin 1) e) + Cert.Spec.eps) * x2 (ix2 e j) := by
  unfold k2_pay2
  simp only [shapeCast_self]
  refine congrArg (acc (ix2 p j) + ·) ?_
  refine (mm2_apply _ _ p j).trans ?_
  refine Finset.sum_congr rfl fun e _ => ?_
  refine congrArg (· * x2 (ix2 e j)) ?_
  refine congrArg (Ideal.div (x0 (ix2 p e))) ?_
  exact broadcastTo_1b_ab_apply _ _ p e

theorem pay3_apply (acc : Vec Ideal S768x16 .f32) (b : Vec Ideal S1x16 .f32) (p : Fin 768) (j : Fin 16) :
    k2_pay3 (F := Ideal) acc b (ix2 p j) = acc (ix2 p j) + b (ix2 (0 : Fin 1) j) := by
  unfold k2_pay3
  simp only [shapeCast_self]
  refine congrArg (acc (ix2 p j) + ·) ?_
  exact broadcastTo_1b_ab_apply _ _ p j

end Cert.KernelIdeal.Val.R2

end
-- ==== Proof.KI.V2.lean ====
import proofs.«158961_j3762391351854_1_alg».proof.Proof.KI.R0
import proofs.«158961_j3762391351854_1_alg».proof.Proof.KI.R1
import proofs.«158961_j3762391351854_1_alg».proof.Proof.KI.R2
import proofs.«158961_j3762391351854_1_alg».proof.Proof.KI.V2Pay
import proofs.«158961_j3762391351854_1_alg».proof.Proof.Spec
import proofs.«158961_j3762391351854_1_alg».proof.Proof.LibBlocks
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx Idealize.ShloMosaic.Tactic
open Idealize.ShloMosaic.Pipeline (Dat)

namespace Cert.KernelIdeal.Val.R2

open Cert.KernelIdeal Cert.KernelIdeal.Gen Cert.KernelIdeal.Fr

section Pieces

variable {F : FTy → Type} [FloatOps F]

theorem hz2 : (![0, 0] : Fin 2 → Nat) = fun _ => 0 := funext fun a => by fin_cases a <;> rfl

section
variable (c : Dev nD) (i : grid2.Coords) (arg2 : Memref sig .tc .vmem S768x768 .f32) (harg2 : arg2.IsWhole) (arg3 : Memref sig .tc .vmem S1x768 .f32) (harg3 : arg3.IsWhole) (arg4 : Memref sig .tc .vmem S768x16 .f32) (harg4 : arg4.IsWhole) (arg5 : Memref sig .tc .vmem S1x16 .f32) (harg5 : arg5.IsWhole) (arg6 : Memref sig .tc .vmem S768x16 .f32) (harg6 : arg6.IsWhole) (arg7 : Memref sig .tc .vmem S768x16 .f32) (harg7 : arg7.IsWhole)

theorem soutA_eq (hc0 : cond2_0 i) (hc1 : ¬cond2_1 i)
    (x0 : Vec F S768x768 .f32) (x1 : Vec F S1x768 .f32) (x2 : Vec F S768x16 .f32) (x3 : Vec F S1x16 .f32) :
    sout2_A_0 c i arg2 harg2 arg3 harg3 arg4 harg4 arg5 harg5 arg6 harg6 arg7 harg7 hc0 hc1 x0 x1 x2 x3 = k2_pay2 x0 x1 x2 (k2_pay1 (F := F)) := by
  unfold sout2_A_0
  rw [View.read_writes_eq_canon _ _ _ (scover2_A_0 c i arg2 harg2 arg3 harg3 arg4 harg4 arg5 harg5 arg6 harg6 arg7 harg7 hc0 hc1 x0 x1 x2 x3)]
  unfold kernelRun2_A
  dsimp only
  sl_unfold_words
  rw [View.canon_cons_unit_zero (S := S768x16) hz2, View.readCov_unit_zero (S := S768x16) _ hz2]
  simp only [View.readAt_eq_ld, harg2.read_unread, harg3.read_unread, harg4.read_unread, harg5.read_unread, harg7.read_unread, View.ld_unit_zero (S := S768x768) hz2, View.ld_unit_zero (S := S1x768) hz2, View.ld_unit_zero (S := S768x16) hz2, View.ld_unit_zero (S := S1x16) hz2]

theorem soutB_eq (hc0 : ¬cond2_0 i) (hc1 : ¬cond2_1 i)
    (x0 : Vec F S768x768 .f32) (x1 : Vec F S1x768 .f32) (x2 : Vec F S768x16 .f32) (x3 : Vec F S1x16 .f32) (xs0 : Vec F S768x16 .f32) :
    sout2_B_0 c i arg2 harg2 arg3 harg3 arg4 harg4 arg5 harg5 arg6 harg6 arg7 harg7 hc0 hc1 x0 x1 x2 x3 xs0 = k2_pay2 x0 x1 x2 xs0 := by
  unfold sout2_B_0
  rw [View.read_writes_eq_canon _ _ _ (scover2_B_0 c i arg2 harg2 arg3 harg3 arg4 harg4 arg5 harg5 arg6 harg6 arg7 harg7 hc0 hc1 x0 x1 x2 x3 xs0)]
  unfold kernelRun2_B
  dsimp only
  sl_unfold_words
  rw [View.canon_unit_zero hz2]
  simp only [View.readAt_eq_ld, harg2.read_unread, harg3.read_unread, harg4.read_unread, harg5.read_unread, harg7.read_unread, View.ld_unit_zero (S := S768x768) hz2, View.ld_unit_zero (S := S1x768) hz2, View.ld_unit_zero (S := S768x16) hz2, View.ld_unit_zero (S := S1x16) hz2]

theorem soutC_eq (hc0 : ¬cond2_0 i) (hc1 : cond2_1 i)
    (x0 : Vec F S768x768 .f32) (x1 : Vec F S1x768 .f32) (x2 : Vec F S768x16 .f32) (x3 : Vec F S1x16 .f32) (xs0 : Vec F S768x16 .f32) :
    sout2_C_0 c i arg2 harg2 arg3 harg3 arg4 harg4 arg5 harg5 arg6 harg6 arg7 harg7 hc0 hc1 x0 x1 x2 x3 xs0 = k2_pay2 x0 x1 x2 xs0 := by
  unfold sout2_C_0
  rw [View.read_writes_eq_canon _ _ _ (scover2_C_0 c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readAt_eq_ld, harg2.read_unread, harg3.read_unread, harg4.read_unread, harg5.read_unread, harg7.read_unread, View.ld_unit_zero (S := S768x768) hz2, View.ld_unit_zero (S := S1x768) hz2, View.ld_unit_zero (S := S768x16) hz2, View.ld_unit_zero (S := S1x16) hz2]

theorem outC_eq (hc0 : ¬cond2_0 i) (hc1 : cond2_1 i)
    (x0 : Vec F S768x768 .f32) (x1 : Vec F S1x768 .f32) (x2 : Vec F S768x16 .f32) (x3 : Vec F S1x16 .f32) (xs0 : Vec F S768x16 .f32) :
    out2_C_4 c i arg2 harg2 arg3 harg3 arg4 harg4 arg5 harg5 arg6 harg6 arg7 harg7 hc0 hc1 x0 x1 x2 x3 xs0 = k2_pay3 (k2_pay2 x0 x1 x2 xs0) x3 := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero hz2, View.readCov_unit_zero (S := S768x16) _ hz2]
  simp only [View.readAt_eq_ld, harg2.read_unread, harg3.read_unread, harg4.read_unread, harg5.read_unread, harg7.read_unread, View.ld_unit_zero (S := S768x768) hz2, View.ld_unit_zero (S := S1x768) hz2, View.ld_unit_zero (S := S768x16) hz2, View.ld_unit_zero (S := S1x16) hz2]
end

end Pieces

variable (V : (c : Dev nD) → (b : Ref sig .tc) → Buf (Elt Ideal) ((c : Thread nD τ).loc b))

abbrev aB (c : Dev nD) : Vec Ideal S6144x6144 .f32 := V c main_v14_0
abbrev cmx (c : Dev nD) : Vec Ideal S1x6144 .f32 := V c main_v14_1
abbrev hwe (c : Dev nD) : Vec Ideal S6144x16 .f32 := V c main_v11
abbrev bee (c : Dev nD) : Vec Ideal S1x16 .f32 := V c main_v12
abbrev xb0 (c : Dev nD) (t : Fin cfg2.N) : Vec Ideal S768x768 .f32 := iblk2 V c 0 t
abbrev xb1 (c : Dev nD) (t : Fin cfg2.N) : Vec Ideal S1x768 .f32 := iblk2 V c 1 t
abbrev xb2 (c : Dev nD) (t : Fin cfg2.N) : Vec Ideal S768x16 .f32 := iblk2 V c 2 t
abbrev xb3 (c : Dev nD) (t : Fin cfg2.N) : Vec Ideal S1x16 .f32 := iblk2 V c 3 t

theorem idx2 : ∀ t : Fin cfg2.N, win2_0.index t (0 : Fin 2) = t.val / 8 ∧ win2_0.index t (1 : Fin 2) = t.val % 8
    ∧ win2_1.index t (0 : Fin 2) = 0 ∧ win2_1.index t (1 : Fin 2) = t.val % 8
    ∧ win2_2.index t (0 : Fin 2) = t.val % 8 ∧ win2_2.index t (1 : Fin 2) = 0
    ∧ win2_3.index t (0 : Fin 2) = 0 ∧ win2_3.index t (1 : Fin 2) = 0
    ∧ win2_4.index t (0 : Fin 2) = t.val / 8 ∧ win2_4.index t (1 : Fin 2) = 0 :=
  (by decide +kernel : ∀ t : Fin grid2.N, _)

theorem xb0_apply (c : Dev nD) (t : Fin cfg2.N) (r e : Fin 768) (a b : Fin 6144)
    (ha : a.val = 768 * (t.val / 8) + r.val) (hb : b.val = 768 * (t.val % 8) + e.val) :
    xb0 V c t (ix2 r e) = aB V c (ix2 a b) := by
  obtain ⟨e0, e1, -⟩ := idx2 t
  show iblk2 V c 0 t (ix2 r e) = _
  unfold iblk2
  rw [View.read_apply]
  show V c main_v14_0 _ = V c main_v14_0 _
  congr 1
  funext ax
  apply Fin.ext
  match ax with
  | ⟨0, _⟩ => show win2_0.index t 0 * 768 + 1 * r.val = a.val; rw [e0, ha]; omega
  | ⟨1, _⟩ => show win2_0.index t 1 * 768 + 1 * e.val = b.val; rw [e1, hb]; omega

theorem xb1_apply (c : Dev nD) (t : Fin cfg2.N) (z : Fin 1) (e : Fin 768) (b : Fin 6144)
    (hb : b.val = 768 * (t.val % 8) + e.val) :
    xb1 V c t (ix2 z e) = cmx V c (ix2 (0 : Fin 1) b) := by
  obtain ⟨-, -, e2, e3, -⟩ := idx2 t
  show iblk2 V c 1 t (ix2 z e) = _
  unfold iblk2
  rw [View.read_apply]
  show V c main_v14_1 _ = V c main_v14_1 _
  congr 1
  funext ax
  apply Fin.ext
  match ax with
  | ⟨0, _⟩ => show win2_1.index t 0 * 1 + 1 * z.val = 0; rw [e2]; have := z.isLt; omega
  | ⟨1, _⟩ => show win2_1.index t 1 * 768 + 1 * e.val = b.val; rw [e3, hb]; omega

theorem xb2_apply (c : Dev nD) (t : Fin cfg2.N) (e : Fin 768) (j : Fin 16) (b : Fin 6144)
    (hb : b.val = 768 * (t.val % 8) + e.val) :
    xb2 V c t (ix2 e j) = hwe V c (ix2 b j) := by
  obtain ⟨-, -, -, -, e4, e5, -⟩ := idx2 t
  show iblk2 V c 2 t (ix2 e j) = _
  unfold iblk2
  rw [View.read_apply]
  show V c main_v11 _ = V c main_v11 _
  congr 1
  funext ax
  apply Fin.ext
  match ax with
  | ⟨0, _⟩ => show win2_2.index t 0 * 768 + 1 * e.val = b.val; rw [e4, hb]; omega
  | ⟨1, _⟩ => show win2_2.index t 1 * 16 + 1 * j.val = j.val; rw [e5]; omega

theorem xb3_apply (c : Dev nD) (t : Fin cfg2.N) (z : Fin 1) (j : Fin 16) :
    xb3 V c t (ix2 z j) = bee V c (ix2 (0 : Fin 1) j) := by
  obtain ⟨-, -, -, -, -, -, e6, e7, -⟩ := idx2 t
  show iblk2 V c 3 t (ix2 z j) = _
  unfold iblk2
  rw [View.read_apply]
  show V c main_v12 _ = V c main_v12 _
  congr 1
  funext ax
  apply Fin.ext
  match ax with
  | ⟨0, _⟩ => show win2_3.index t 0 * 1 + 1 * z.val = 0; rw [e6]; have := z.isLt; omega
  | ⟨1, _⟩ => show win2_3.index t 1 * 16 + 1 * j.val = j.val; rw [e7]; omega

def term (c : Dev nD) (t : Fin cfg2.N) (r : Fin 768) (j : Fin 16) : EReal :=
  ∑ e : Fin 768, Ideal.div (xb0 V c t (ix2 r e)) (xb1 V c t (ix2 (0 : Fin 1) e) + Cert.Spec.eps) * xb2 V c t (ix2 e j)

def summand (c : Dev nD) (a : Fin 6144) (j : Fin 16) (x : Fin 6144) : EReal :=
  Ideal.div (aB V c (ix2 a x)) (cmx V c (ix2 (0 : Fin 1) x) + Cert.Spec.eps) * hwe V c (ix2 x j)

theorem h8 : 8 * 768 = 6144 := by norm_num

theorem term_eq (c : Dev nD) (t : Fin cfg2.N) (r : Fin 768) (j : Fin 16) (a : Fin 6144) (ha : a.val = 768 * (t.val / 8) + r.val) :
    term V c t r j = ∑ e : Fin 768, summand V c a j (Cert.LibBlocks.blk h8 ⟨t.val % 8, Nat.mod_lt _ (by norm_num)⟩ e) := by
  unfold term summand
  refine Finset.sum_congr rfl fun e _ => ?_
  rw [xb0_apply V c t r e a (Cert.LibBlocks.blk h8 ⟨t.val % 8, Nat.mod_lt _ (by norm_num)⟩ e) ha rfl,
    xb1_apply V c t 0 e (Cert.LibBlocks.blk h8 ⟨t.val % 8, Nat.mod_lt _ (by norm_num)⟩ e) rfl,
    xb2_apply V c t e j (Cert.LibBlocks.blk h8 ⟨t.val % 8, Nat.mod_lt _ (by norm_num)⟩ e) rfl]

theorem accA (c : Dev nD) (t : Fin cfg2.N) (h0 : t.val % 8 = 0) (r : Fin 768) (j : Fin 16) :
    (outsAt2 V c t.val t.isLt).2 (ix2 r j) = 0 + term V c t r j := by
  have h1 : ¬t.val % 8 = 7 := by omega
  rw [outsAt2_A V c t h0 h1]
  dsimp only
  refine (congrFun (soutA_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (xb0 V c t) (xb1 V c t) (xb2 V c t) (xb3 V c t)) (ix2 r j)).trans ?_
  refine (pay2_apply (xb0 V c t) (xb1 V c t) (xb2 V c t) (k2_pay1 (F := Ideal)) r j).trans ?_
  exact congrArg (· + term V c t r j) (pay1_apply r j)

theorem accS (c : Dev nD) (t : Fin cfg2.N) (h0 : ¬t.val % 8 = 0) (r : Fin 768) (j : Fin 16) :
    (outsAt2 V c t.val t.isLt).2 (ix2 r j) = (outsAt2 V c (t.val - 1) (Nat.lt_of_le_of_lt (Nat.sub_le _ _) t.isLt)).2 (ix2 r j) + term V c t r j := by
  by_cases h1 : t.val % 8 = 7
  · rw [outsAt2_C V c t h0 h1]
    dsimp only
    refine (congrFun (soutC_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (xb0 V c t) (xb1 V c t) (xb2 V c t) (xb3 V c t) (outsAt2 V c (t.val - 1) (Nat.lt_of_le_of_lt (Nat.sub_le _ _) t.isLt)).2) (ix2 r j)).trans ?_
    exact pay2_apply (xb0 V c t) (xb1 V c t) (xb2 V c t) (outsAt2 V c (t.val - 1) (Nat.lt_of_le_of_lt (Nat.sub_le _ _) t.isLt)).2 r j
  · rw [outsAt2_B V c t h0 h1]
    dsimp only
    refine (congrFun (soutB_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (xb0 V c t) (xb1 V c t) (xb2 V c t) (xb3 V c t) (outsAt2 V c (t.val - 1) (Nat.lt_of_le_of_lt (Nat.sub_le _ _) t.isLt)).2) (ix2 r j)).trans ?_
    exact pay2_apply (xb0 V c t) (xb1 V c t) (xb2 V c t) (outsAt2 V c (t.val - 1) (Nat.lt_of_le_of_lt (Nat.sub_le _ _) t.isLt)).2 r j

theorem outC (c : Dev nD) (t : Fin cfg2.N) (h1 : t.val % 8 = 7) (r : Fin 768) (j : Fin 16) :
    (outsAt2 V c t.val t.isLt).1 (ix2 r j) = (outsAt2 V c t.val t.isLt).2 (ix2 r j) + bee V c (ix2 (0 : Fin 1) j) := by
  have h0 : ¬t.val % 8 = 0 := by omega
  rw [outsAt2_C V c t h0 h1]
  dsimp only
  refine (congrFun (outC_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (xb0 V c t) (xb1 V c t) (xb2 V c t) (xb3 V c t) (outsAt2 V c (t.val - 1) (Nat.lt_of_le_of_lt (Nat.sub_le _ _) t.isLt)).2) (ix2 r j)).trans ?_
  refine (pay3_apply _ (xb3 V c t) r j).trans ?_
  rw [xb3_apply V c t 0 j]
  refine congrArg (· + bee V c (ix2 (0 : Fin 1) j)) ?_
  exact (congrFun (soutC_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (xb0 V c t) (xb1 V c t) (xb2 V c t) (xb3 V c t) (outsAt2 V c (t.val - 1) (Nat.lt_of_le_of_lt (Nat.sub_le _ _) t.isLt)).2) (ix2 r j)).symm

theorem outsAt2_congr (c : Dev nD) {n n' : ℕ} (h : n = n') (hn : n < cfg2.N) (hn' : n' < cfg2.N) :
    outsAt2 V c n hn = outsAt2 V c n' hn' := by subst h; rfl

def accSeq (c : Dev nD) (i : Fin 8) (r : Fin 768) (j : Fin 16) (k : ℕ) : EReal :=
  if h : 8 * i.val + k < cfg2.N then (outsAt2 V c (8 * i.val + k) h).2 (ix2 r j) else 0
def blkSeq (c : Dev nD) (a : Fin 6144) (j : Fin 16) (k : ℕ) : EReal :=
  if h : k < 8 then ∑ e : Fin 768, summand V c a j (Cert.LibBlocks.blk h8 ⟨k, h⟩ e) else 0

theorem accSeq_of_lt (c : Dev nD) (i : Fin 8) (r : Fin 768) (j : Fin 16) (k : ℕ) (h : 8 * i.val + k < cfg2.N) :
    accSeq V c i r j k = (outsAt2 V c (8 * i.val + k) h).2 (ix2 r j) := dif_pos h
theorem blkSeq_of_lt (c : Dev nD) (a : Fin 6144) (j : Fin 16) (k : ℕ) (h : k < 8) :
    blkSeq V c a j k = ∑ e : Fin 768, summand V c a j (Cert.LibBlocks.blk h8 ⟨k, h⟩ e) := dif_pos h

theorem acc_last (c : Dev nD) (i : Fin 8) (r : Fin 768) (j : Fin 16) (a : Fin 6144) (ha : a.val = 768 * i.val + r.val)
    (hlt : 8 * i.val + 7 < cfg2.N) :
    (outsAt2 V c (8 * i.val + 7) hlt).2 (ix2 r j) = ∑ x : Fin 6144, summand V c a j x := by
  have hN : cfg2.N = 64 := N_2
  have hi := i.isLt
  have hS0 : accSeq V c i r j 0 = 0 + blkSeq V c a j 0 := by
    have hlt0 : 8 * i.val + 0 < cfg2.N := by omega
    rw [accSeq_of_lt V c i r j 0 hlt0, blkSeq_of_lt V c a j 0 (by norm_num)]
    refine (accA V c ⟨8 * i.val + 0, hlt0⟩ (by show (8 * i.val + 0) % 8 = 0; omega) r j).trans ?_
    refine congrArg (0 + ·) ?_
    refine (term_eq V c ⟨8 * i.val + 0, hlt0⟩ r j a (by show a.val = 768 * ((8 * i.val + 0) / 8) + r.val; omega)).trans ?_
    refine Finset.sum_congr rfl fun e _ => congrArg (summand V c a j) (Fin.ext ?_)
    show 768 * ((8 * i.val + 0) % 8) + e.val = 768 * 0 + e.val
    omega
  have hSs : ∀ k, k + 1 < 8 → accSeq V c i r j (k + 1) = accSeq V c i r j k + blkSeq V c a j (k + 1) := by
    intro k hk
    have hlt1 : 8 * i.val + (k + 1) < cfg2.N := by omega
    have hlt0 : 8 * i.val + k < cfg2.N := by omega
    rw [accSeq_of_lt V c i r j (k + 1) hlt1, accSeq_of_lt V c i r j k hlt0, blkSeq_of_lt V c a j (k + 1) hk]
    refine (accS V c ⟨8 * i.val + (k + 1), hlt1⟩ (by show ¬(8 * i.val + (k + 1)) % 8 = 0; omega) r j).trans ?_
    have ep := congrFun (congrArg Prod.snd (outsAt2_congr V c (show 8 * i.val + (k + 1) - 1 = 8 * i.val + k by omega)
      (Nat.lt_of_le_of_lt (Nat.sub_le _ _) hlt1) hlt0)) (ix2 r j)
    refine (congrArg (· + term V c ⟨8 * i.val + (k + 1), hlt1⟩ r j) ep).trans ?_
    refine congrArg ((outsAt2 V c (8 * i.val + k) hlt0).2 (ix2 r j) + ·) ?_
    refine (term_eq V c ⟨8 * i.val + (k + 1), hlt1⟩ r j a (by show a.val = 768 * ((8 * i.val + (k + 1)) / 8) + r.val; omega)).trans ?_
    refine Finset.sum_congr rfl fun e _ => congrArg (summand V c a j) (Fin.ext ?_)
    show 768 * ((8 * i.val + (k + 1)) % 8) + e.val = 768 * (k + 1) + e.val
    omega
  have hB : ∀ t : Fin 8, blkSeq V c a j t.val = ∑ e : Fin 768, summand V c a j (Cert.LibBlocks.blk h8 t e) :=
    fun t => blkSeq_of_lt V c a j t.val t.isLt
  have key := Cert.LibBlocks.acc_blocks h8 (summand V c a j) (accSeq V c i r j) (blkSeq V c a j) hS0 hSs hB (by norm_num)
  exact (accSeq_of_lt V c i r j 7 hlt).symm.trans key

theorem out_last (c : Dev nD) (t : Fin cfg2.N) (h7 : t.val % 8 = 7) (r : Fin 768) (j : Fin 16) (a : Fin 6144)
    (ha : a.val = 768 * (t.val / 8) + r.val) :
    (outsAt2 V c t.val t.isLt).1 (ix2 r j) = Cert.Spec.heAt (aB V c) (cmx V c) (hwe V c) (bee V c) a j := by
  have hN : cfg2.N = 64 := N_2
  have ht := t.isLt
  rw [outC V c t h7 r j]
  have hlt : 8 * (t.val / 8) + 7 < cfg2.N := by omega
  have e : (outsAt2 V c t.val t.isLt).2 (ix2 r j) = (outsAt2 V c (8 * (t.val / 8) + 7) hlt).2 (ix2 r j) :=
    congrFun (congrArg Prod.snd (outsAt2_congr V c (show t.val = 8 * (t.val / 8) + 7 by omega) t.isLt hlt)) (ix2 r j)
  rw [e, acc_last V c ⟨t.val / 8, by omega⟩ r j a ha hlt]
  rfl

theorem mem_blk4 (t : Fin cfg2.N) (i : S6144x16.Idx) :
    i ∈ ((cfg2.win 4).blk t).view.set ↔ ∀ a : Fin 2, win2_4.index t a * S768x16.size a ≤ (i a).val ∧ (i a).val < win2_4.index t a * S768x16.size a + S768x16.size a := by
  show i ∈ ((View.whole main_v15).slice (win2_4.rect t)).set ↔ _
  rw [View.set_slice_whole, Rect.mem_set_unit]
  exact Iff.rfl

theorem flushed2_eq (c : Dev nD) (t : Fin cfg2.N) (hf : (cfg2.win 4).flush t = true) :
    (dat2 V c).flushed 4 t = ((cfg2.win 4).blk t).view.read (Elt Ideal) (Cert.Spec.heArr (aB V c) (cmx V c) (hwe V c) (bee V c)) := by
  have h7 : t.val % 8 = 7 := (flush2_4 t).mp hf
  have hN : cfg2.N = 64 := N_2
  have ht := t.isLt
  obtain ⟨-, -, -, -, -, -, -, -, e8, e9⟩ := idx2 t
  show (cfg2.win 4).cut (grid2.coords t) ((dat2 V c).after 4 t) = _
  rw [after2_4]
  funext y
  obtain ⟨r, j, rfl⟩ : ∃ (r : Fin 768) (j : Fin 16), y = ix2 r j := ⟨y 0, y 1, eq_ix2 y⟩
  rw [View.read_apply]
  refine (out_last V c t h7 r j ⟨768 * (t.val / 8) + r.val, by have := r.isLt; omega⟩ rfl).trans ?_
  refine congrArg₂ (Cert.Spec.heAt (aB V c) (cmx V c) (hwe V c) (bee V c)) (Fin.ext ?_) (Fin.ext ?_)
  · show 768 * (t.val / 8) + r.val = win2_4.index t 0 * 768 + 1 * r.val
    rw [e8]; omega
  · show j.val = win2_4.index t 1 * 16 + 1 * j.val
    rw [e9]; omega

theorem edge_final (c : Dev nD) :
    (dat2 (F := Ideal) V c).arrAt 4 cfg2.N = Cert.Spec.heArr (V c main_v14_0) (V c main_v14_1) (V c main_v11) (V c main_v12) :=
  (dat2 V c).arrAt_eq_of_cover 4 (Cert.Spec.heArr (aB V c) (cmx V c) (hwe V c) (bee V c)) (flushed2_eq V c) fun i => by
    have hN : cfg2.N = 64 := N_2
    have hi0 : (i 0).val < 6144 := (i 0).isLt
    have hi1 : (i 1).val < 16 := (i 1).isLt
    have hlt : 8 * ((i 0).val / 768) + 7 < cfg2.N := by omega
    obtain ⟨-, -, -, -, -, -, -, -, e8, e9⟩ := idx2 ⟨8 * ((i 0).val / 768) + 7, hlt⟩
    refine ⟨⟨8 * ((i 0).val / 768) + 7, hlt⟩, (flush2_4 _).mpr (by show (8 * ((i 0).val / 768) + 7) % 8 = 7; omega), ?_⟩
    rw [mem_blk4]
    intro a
    match a with
    | ⟨0, _⟩ =>
      show win2_4.index ⟨8 * ((i 0).val / 768) + 7, hlt⟩ 0 * 768 ≤ (i 0).val ∧ (i 0).val < win2_4.index ⟨8 * ((i 0).val / 768) + 7, hlt⟩ 0 * 768 + 768
      rw [e8]
      show (8 * ((i 0).val / 768) + 7) / 8 * 768 ≤ (i 0).val ∧ (i 0).val < (8 * ((i 0).val / 768) + 7) / 8 * 768 + 768
      omega
    | ⟨1, _⟩ =>
      show win2_4.index ⟨8 * ((i 0).val / 768) + 7, hlt⟩ 1 * 16 ≤ (i 1).val ∧ (i 1).val < win2_4.index ⟨8 * ((i 0).val / 768) + 7, hlt⟩ 1 * 16 + 16
      rw [e9]; omega

end Cert.KernelIdeal.Val.R2

namespace Cert.KernelIdeal.Val

open Cert.KernelIdeal Cert.KernelIdeal.Gen Cert.KernelIdeal.Fr

variable (V : (c : Dev nD) → (b : Ref sig .tc) → Buf (Elt Ideal) ((c : Thread nD τ).loc b)) (c : Dev nD)

theorem final2 : ((dat2 (F := Ideal) V c).arrAt 4 cfg2.N) = Cert.Spec.heArr (V c main_v14_0) (V c main_v14_1) (V c main_v11) (V c main_v12) :=
  R2.edge_final V c

end Cert.KernelIdeal.Val

end
-- ==== Proof.KI.HostVals.lean ====
import proofs.«158961_j3762391351854_1_alg».proof.Proof.Gen.KernelIdeal.Launch
import proofs.«158961_j3762391351854_1_alg».proof.Proof.Gen.KernelIdeal.Regions
import proofs.«158961_j3762391351854_1_alg».proof.Proof.Spec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx

theorem dot_apply_of_axes {a k b : ℕ} (D : DotDims ⟨2, ![a, k]⟩ ⟨2, ![k, b]⟩ ⟨2, ![a, b]⟩)
    (hr : D.contr.rank = 1) (hs : D.contr.size ⟨0, by omega⟩ = k)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (x : FVec Ideal ⟨2, ![a, k]⟩ .f32) (y : FVec Ideal ⟨2, ![k, b]⟩ .f32) (i : Fin a) (j : Fin b) :
    Host.dotGeneral (F := Ideal) D none x y (ix2 i j) = ∑ q : Fin k, x (ix2 i q) * y (ix2 q j) := by
  simp only [Host.dotGeneral]
  rw [Ideal.dotGeneral_apply, ← Equiv.sum_comp (contrEquiv1 D k hr hs).symm]
  refine Finset.sum_congr rfl fun q _ => ?_
  have hq := contrEquiv1_symm_val D k hr hs q
  have el : D.lhsIdx (ix2 i j) ((contrEquiv1 D k hr hs).symm q) = ix2 i q := funext fun c => Fin.ext (by
    match c with
    | ⟨0, _⟩ => exact hl0 _ _
    | ⟨1, _⟩ => exact (hl1 _ _).trans hq)
  have er : D.rhsIdx (ix2 i j) ((contrEquiv1 D k hr hs).symm q) = ix2 q j := funext fun c => Fin.ext (by
    match c with
    | ⟨0, _⟩ => exact (hr0 _ _).trans hq
    | ⟨1, _⟩ => exact hr1 _ _)
  rw [el, er]

theorem dot_de_apply (x : FVec Ideal S6144x16 .f32) (y : FVec Ideal S16x1 .f32) (i : Fin 6144) (j : Fin 1) :
    Host.dotGeneral (F := Ideal) dot_S6144x16_S16x1_S6144x1_1_0_0_1_n_n none x y (ix2 i j) = ∑ q : Fin 16, x (ix2 i q) * y (ix2 q j) :=
  dot_apply_of_axes dot_S6144x16_S16x1_S6144x1_1_0_0_1_n_n rfl rfl
    (fun i q => by
      unfold DotDims.lhsIdx
      rw [dif_neg (show ¬(0 : Fin S6144x16.rank) ∈ dot_S6144x16_S16x1_S6144x1_1_0_0_1_n_n.lhsBatch by decide), dif_pos (show (0 : Fin S6144x16.rank) ∈ dot_S6144x16_S16x1_S6144x1_1_0_0_1_n_n.lhsNonContracting by decide)]
      rfl)
    (fun i q => dot_S6144x16_S16x1_S6144x1_1_0_0_1_n_n.lhsIdx_val_of_single rfl i q)
    (fun i q => dot_S6144x16_S16x1_S6144x1_1_0_0_1_n_n.rhsIdx_val_of_single rfl i q)
    (fun i q => by
      unfold DotDims.rhsIdx
      rw [dif_neg (show ¬(1 : Fin S16x1.rank) ∈ dot_S6144x16_S16x1_S6144x1_1_0_0_1_n_n.rhsBatch by decide), dif_pos (show (1 : Fin S16x1.rank) ∈ dot_S6144x16_S16x1_S6144x1_1_0_0_1_n_n.rhsNonContracting by decide)]
      rfl)
    x y i j

theorem dot_hw_apply (x : FVec Ideal S2048x128 .f32) (y : FVec Ideal S128x64 .f32) (i : Fin 2048) (j : Fin 64) :
    Host.dotGeneral (F := Ideal) dot_S2048x128_S128x64_S2048x64_1_0_0_1_n_n none x y (ix2 i j) = ∑ q : Fin 128, x (ix2 i q) * y (ix2 q j) :=
  dot_apply_of_axes dot_S2048x128_S128x64_S2048x64_1_0_0_1_n_n rfl rfl
    (fun i q => by
      unfold DotDims.lhsIdx
      rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
      rfl)
    (fun i q => dot_S2048x128_S128x64_S2048x64_1_0_0_1_n_n.lhsIdx_val_of_single rfl i q)
    (fun i q => dot_S2048x128_S128x64_S2048x64_1_0_0_1_n_n.rhsIdx_val_of_single rfl i q)
    (fun i q => by
      unfold DotDims.rhsIdx
      rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
      rfl)
    x y i j

theorem dot_dv_apply (x : FVec Ideal S2048x64 .f32) (y : FVec Ideal S64x1 .f32) (i : Fin 2048) (j : Fin 1) :
    Host.dotGeneral (F := Ideal) dot_S2048x64_S64x1_S2048x1_1_0_0_1_n_n none x y (ix2 i j) = ∑ q : Fin 64, x (ix2 i q) * y (ix2 q j) :=
  dot_apply_of_axes dot_S2048x64_S64x1_S2048x1_1_0_0_1_n_n rfl rfl
    (fun i q => by
      unfold DotDims.lhsIdx
      rw [dif_neg (show ¬(0 : Fin S2048x64.rank) ∈ dot_S2048x64_S64x1_S2048x1_1_0_0_1_n_n.lhsBatch by decide), dif_pos (show (0 : Fin S2048x64.rank) ∈ dot_S2048x64_S64x1_S2048x1_1_0_0_1_n_n.lhsNonContracting by decide)]
      rfl)
    (fun i q => dot_S2048x64_S64x1_S2048x1_1_0_0_1_n_n.lhsIdx_val_of_single rfl i q)
    (fun i q => dot_S2048x64_S64x1_S2048x1_1_0_0_1_n_n.rhsIdx_val_of_single rfl i q)
    (fun i q => by
      unfold DotDims.rhsIdx
      rw [dif_neg (show ¬(1 : Fin S64x1.rank) ∈ dot_S2048x64_S64x1_S2048x1_1_0_0_1_n_n.rhsBatch by decide), dif_pos (show (1 : Fin S64x1.rank) ∈ dot_S2048x64_S64x1_S2048x1_1_0_0_1_n_n.rhsNonContracting by decide)]
      rfl)
    x y i j

theorem dot_hewe_apply (x : FVec Ideal S6144x16 .f32) (y : FVec Ideal S16x16 .f32) (i : Fin 6144) (j : Fin 16) :
    Host.dotGeneral (F := Ideal) dot_S6144x16_S16x16_S6144x16_1_0_0_1_n_n none x y (ix2 i j) = ∑ q : Fin 16, x (ix2 i q) * y (ix2 q j) :=
  dot_apply_of_axes dot_S6144x16_S16x16_S6144x16_1_0_0_1_n_n rfl rfl
    (fun i q => by
      unfold DotDims.lhsIdx
      rw [dif_neg (show ¬(0 : Fin S6144x16.rank) ∈ dot_S6144x16_S16x16_S6144x16_1_0_0_1_n_n.lhsBatch by decide), dif_pos (show (0 : Fin S6144x16.rank) ∈ dot_S6144x16_S16x16_S6144x16_1_0_0_1_n_n.lhsNonContracting by decide)]
      rfl)
    (fun i q => dot_S6144x16_S16x16_S6144x16_1_0_0_1_n_n.lhsIdx_val_of_single rfl i q)
    (fun i q => dot_S6144x16_S16x16_S6144x16_1_0_0_1_n_n.rhsIdx_val_of_single rfl i q)
    (fun i q => by
      unfold DotDims.rhsIdx
      rw [dif_neg (show ¬(1 : Fin S16x16.rank) ∈ dot_S6144x16_S16x16_S6144x16_1_0_0_1_n_n.rhsBatch by decide), dif_pos (show (1 : Fin S16x16.rank) ∈ dot_S6144x16_S16x16_S6144x16_1_0_0_1_n_n.rhsNonContracting by decide)]
      rfl)
    x y i j

theorem cast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem cast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

def deTerm (x1 : FVec Ideal S6144x16 .f32) (x7 : FVec Ideal S1x16 .f32) : FVec Ideal S1x6144 .f32 :=
  shapeCast S1x6144 (shapeCast S6144 (Host.dotGeneral (F := Ideal) dot_S6144x16_S16x1_S6144x1_1_0_0_1_n_n none x1
    (transpose S16x1 [1, 0] x7 transposes_S1x16_S16x1_1_0)) shapeCasts_S6144x1_S6144) shapeCasts_S6144_S1x6144

theorem deTerm_eq (x1 : FVec Ideal S6144x16 .f32) (x7 : FVec Ideal S1x16 .f32) : deTerm x1 x7 = Cert.Spec.deArr x1 x7 := by
  funext j
  obtain ⟨a, b, rfl⟩ : ∃ (a : Fin 1) (b : Fin 6144), j = ix2 a b := ⟨j 0, j 1, eq_ix2 j⟩
  rw [Cert.Spec.deArr_apply]
  unfold deTerm Cert.Spec.deAt
  rw [shapeCast_a_1a_apply, cast_a1_a_apply, dot_de_apply]
  refine Finset.sum_congr rfl fun q _ => ?_
  rw [transpose_ix2_apply]

def hwTerm (x0 : FVec Ideal S2048x128 .f32) (x5 : FVec Ideal S128x64 .f32) : FVec Ideal S2048x64 .f32 :=
  Host.dotGeneral (F := Ideal) dot_S2048x128_S128x64_S2048x64_1_0_0_1_n_n none x0 x5

theorem hwTerm_eq (x0 : FVec Ideal S2048x128 .f32) (x5 : FVec Ideal S128x64 .f32) : hwTerm x0 x5 = Cert.Spec.hwArr x0 x5 := by
  funext j
  obtain ⟨a, b, rfl⟩ : ∃ (a : Fin 2048) (b : Fin 64), j = ix2 a b := ⟨j 0, j 1, eq_ix2 j⟩
  rw [Cert.Spec.hwArr_apply]
  unfold hwTerm Cert.Spec.hwAt
  rw [dot_hw_apply]

def bvTerm (x6 : FVec Ideal S64 .f32) : FVec Ideal S1x64 .f32 := shapeCast S1x64 x6 shapeCasts_S64_S1x64

theorem bvTerm_eq (x6 : FVec Ideal S64 .f32) : bvTerm x6 = Cert.Spec.bvArr x6 := by
  funext j
  obtain ⟨a, b, rfl⟩ : ∃ (a : Fin 1) (b : Fin 64), j = ix2 a b := ⟨j 0, j 1, eq_ix2 j⟩
  rw [Cert.Spec.bvArr_apply]
  unfold bvTerm
  rw [shapeCast_a_1a_apply]

def dvTerm (x6 : FVec Ideal S2048x64 .f32) (x10 : FVec Ideal S1x64 .f32) : FVec Ideal S2048x1 .f32 :=
  shapeCast S2048x1 (shapeCast S2048 (Host.dotGeneral (F := Ideal) dot_S2048x64_S64x1_S2048x1_1_0_0_1_n_n none x6
    (transpose S64x1 [1, 0] x10 transposes_S1x64_S64x1_1_0)) shapeCasts_S2048x1_S2048) shapeCasts_S2048_S2048x1

theorem dvTerm_eq (x6 : FVec Ideal S2048x64 .f32) (x10 : FVec Ideal S1x64 .f32) : dvTerm x6 x10 = Cert.Spec.dvArr x6 x10 := by
  funext j
  obtain ⟨a, b, rfl⟩ : ∃ (a : Fin 2048) (b : Fin 1), j = ix2 a b := ⟨j 0, j 1, eq_ix2 j⟩
  rw [Cert.Spec.dvArr_apply]
  unfold dvTerm Cert.Spec.dvAt
  rw [cast_a_a1_apply, cast_a1_a_apply, dot_dv_apply]
  refine Finset.sum_congr rfl fun q _ => ?_
  rw [transpose_ix2_apply]

def heweTerm (x1 : FVec Ideal S6144x16 .f32) (x8 : FVec Ideal S16x16 .f32) : FVec Ideal S6144x16 .f32 :=
  Host.dotGeneral (F := Ideal) dot_S6144x16_S16x16_S6144x16_1_0_0_1_n_n none x1 x8

theorem heweTerm_eq (x1 : FVec Ideal S6144x16 .f32) (x8 : FVec Ideal S16x16 .f32) : heweTerm x1 x8 = Cert.Spec.heweArr x1 x8 := by
  funext j
  obtain ⟨a, b, rfl⟩ : ∃ (a : Fin 6144) (b : Fin 16), j = ix2 a b := ⟨j 0, j 1, eq_ix2 j⟩
  rw [Cert.Spec.heweArr_apply]
  unfold heweTerm Cert.Spec.heweAt
  rw [dot_hewe_apply]

def beTerm (x9 : FVec Ideal S16 .f32) : FVec Ideal S1x16 .f32 := shapeCast S1x16 x9 shapeCasts_S16_S1x16

theorem beTerm_eq (x9 : FVec Ideal S16 .f32) : beTerm x9 = Cert.Spec.beArr x9 := by
  funext j
  obtain ⟨a, b, rfl⟩ : ∃ (a : Fin 1) (b : Fin 16), j = ix2 a b := ⟨j 0, j 1, eq_ix2 j⟩
  rw [Cert.Spec.beArr_apply]
  unfold beTerm
  rw [shapeCast_a_1a_apply]

def tTerm (x4 : FVec Ideal S2048x6144 .f32) : FVec Ideal S2048x6144 .bf16 := truncf .bf16 x4 bitsLt_bf16_f32

theorem tTerm_eq (x4 : FVec Ideal S2048x6144 .f32) : (tTerm x4 : S2048x6144.Idx → EReal) = x4 := by
  funext j
  exact truncf_apply x4 bitsLt_bf16_f32 j

section Stretches

variable (W : Valuation τ sig (Elt Ideal))

theorem host0_v4 :
    (StableHlo.after (hostOps0 (F := Ideal)) W (Proc.devRef .tc main_v4) : S1x6144.Idx → EReal)
      = Cert.Spec.deArr (W (Proc.devRef .tc main_arg1)) (W (Proc.devRef .tc main_arg7)) :=
  Eq.trans (by after_results; rfl) (deTerm_eq _ _)

theorem host0_v3 :
    (StableHlo.after (hostOps0 (F := Ideal)) W (Proc.devRef .tc main_v3) : S2048x64.Idx → EReal)
      = Cert.Spec.hwArr (W (Proc.devRef .tc main_arg0)) (W (Proc.devRef .tc main_arg5)) :=
  Eq.trans (by after_results; rfl) (hwTerm_eq _ _)

theorem host0_v5 :
    (StableHlo.after (hostOps0 (F := Ideal)) W (Proc.devRef .tc main_v5) : S1x64.Idx → EReal)
      = Cert.Spec.bvArr (W (Proc.devRef .tc main_arg6)) :=
  Eq.trans (by after_results; rfl) (bvTerm_eq _)

theorem host1_v10 :
    (StableHlo.after (hostOps1 (F := Ideal)) W (Proc.devRef .tc main_v10) : S2048x1.Idx → EReal)
      = Cert.Spec.dvArr (W (Proc.devRef .tc main_v6)) (W (Proc.devRef .tc main_arg10)) :=
  Eq.trans (by after_results; rfl) (dvTerm_eq _ _)

theorem host1_v11 :
    (StableHlo.after (hostOps1 (F := Ideal)) W (Proc.devRef .tc main_v11) : S6144x16.Idx → EReal)
      = Cert.Spec.heweArr (W (Proc.devRef .tc main_arg1)) (W (Proc.devRef .tc main_arg8)) :=
  Eq.trans (by after_results; rfl) (heweTerm_eq _ _)

theorem host1_v12 :
    (StableHlo.after (hostOps1 (F := Ideal)) W (Proc.devRef .tc main_v12) : S1x16.Idx → EReal)
      = Cert.Spec.beArr (W (Proc.devRef .tc main_arg9)) :=
  Eq.trans (by after_results; rfl) (beTerm_eq _)

theorem host1_v13 :
    (StableHlo.after (hostOps1 (F := Ideal)) W (Proc.devRef .tc main_v13) : S2048x6144.Idx → EReal)
      = W (Proc.devRef .tc main_arg4) :=
  Eq.trans (by after_results; rfl) (tTerm_eq _)

end Stretches

end Cert.KernelIdeal.Val

end
-- ==== Proof.KI.Value.lean ====
import proofs.«158961_j3762391351854_1_alg».proof.Proof.KI.Run
import proofs.«158961_j3762391351854_1_alg».proof.Proof.KI.V0
import proofs.«158961_j3762391351854_1_alg».proof.Proof.KI.V1
import proofs.«158961_j3762391351854_1_alg».proof.Proof.KI.V2
import proofs.«158961_j3762391351854_1_alg».proof.Proof.KI.HostVals
import proofs.«158961_j3762391351854_1_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Cert.Spec

variable (m : (ℓ : Loc nD τ sig) → Buf (Elt Ideal) ℓ) (ρ : Dev nD → PrngReg)

abbrev out0 (c : Dev nD) : Cert.Spec.Mat 2048 64 :=
  Cert.Spec.res0 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
abbrev out1 (c : Dev nD) : Cert.Spec.Mat 6144 16 :=
  Cert.Spec.res1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem hvArr_congr {T T' : Mat 2048 6144} {de de' : Mat 1 6144} {adjv adjv' : Mat 2048 2048} {hw hw' : Mat 2048 64}
    {bv bv' : Mat 1 64} (h1 : T = T') (h2 : de = de') (h3 : adjv = adjv') (h4 : hw = hw') (h5 : bv = bv') :
    hvArr T de adjv hw bv = hvArr T' de' adjv' hw' bv' := by rw [h1, h2, h3, h4, h5]
theorem dvArr_congr {hv hv' : Mat 2048 64} {pe pe' : Mat 1 64} (h1 : hv = hv') (h2 : pe = pe') :
    dvArr hv pe = dvArr hv' pe' := by rw [h1, h2]
theorem aAeArr_congr {T T' : Mat 2048 6144} {dv dv' : Mat 2048 1} {adje adje' : Mat 6144 6144}
    (h1 : T = T') (h2 : dv = dv') (h3 : adje = adje') : aAeArr T dv adje = aAeArr T' dv' adje' := by rw [h1, h2, h3]
theorem heArr_congr {B B' : Mat 6144 6144} {cm cm' : Mat 1 6144} {hewe hewe' : Mat 6144 16} {be be' : Mat 1 16}
    (h1 : B = B') (h2 : cm = cm') (h3 : hewe = hewe') (h4 : be = be') : heArr B cm hewe be = heArr B' cm' hewe' be' := by
  rw [h1, h2, h3, h4]
theorem heweArr_congr {He He' : Mat 6144 16} {We We' : Mat 16 16} (h1 : He = He') (h2 : We = We') :
    heweArr He We = heweArr He' We' := by rw [h1, h2]

theorem dat0_out (c : Dev nD) : ((dat0 (F := Ideal) (V1 m ρ) c).arrAt 5 cfg0.N : S2048x64.Idx → EReal) = out0 m c :=
  (final0 (V1 m ρ) c).trans (hvArr_congr (W1_arg m ρ c main_arg4 (by decide)) (host0_v4 (W0 m ρ c)) (W1_arg m ρ c main_arg2 (by decide))
    (host0_v3 (W0 m ρ c)) (host0_v5 (W0 m ρ c)))
theorem node_out (c : Dev nD) : (W2 m ρ c (Proc.devRef .tc main_v6) : S2048x64.Idx → EReal) = out0 m c :=
  (W2_arr m ρ c 5).trans (dat0_out m ρ c)

abbrev adjB (c : Dev nD) : Cert.Spec.Mat 6144 6144 :=
  aAeArr (m ((c : Thread nD τ).loc main_arg4)) (dvArr (out0 m c) (m ((c : Thread nD τ).loc main_arg10))) (m ((c : Thread nD τ).loc main_arg3))

theorem V3_v13 (c : Dev nD) : (V3 m ρ c main_v13 : S2048x6144.Idx → EReal) = m ((c : Thread nD τ).loc main_arg4) :=
  (host1_v13 (W2 m ρ c)).trans (W2_arg m ρ c main_arg4 (by decide))
theorem V3_v10 (c : Dev nD) : (V3 m ρ c main_v10 : S2048x1.Idx → EReal) = dvArr (out0 m c) (m ((c : Thread nD τ).loc main_arg10)) :=
  (host1_v10 (W2 m ρ c)).trans (dvArr_congr (node_out m ρ c) (W2_arg m ρ c main_arg10 (by decide)))
theorem dat1_out3 (c : Dev nD) : ((dat1 (F := Ideal) (V3 m ρ) c).arrAt 3 cfg1.N : S6144x6144.Idx → EReal) = adjB m c :=
  (final1_3 (V3 m ρ) c).trans (aAeArr_congr (V3_v13 m ρ c) (V3_v10 m ρ c) (W3_arg m ρ c main_arg3 (by decide)))
theorem dat1_out4 (c : Dev nD) : ((dat1 (F := Ideal) (V3 m ρ) c).arrAt 4 cfg1.N : S1x6144.Idx → EReal) = colMaxArr (adjB m c) :=
  (final1_4 (V3 m ρ) c).trans (congrArg colMaxArr (aAeArr_congr (V3_v13 m ρ c) (V3_v10 m ρ c) (W3_arg m ρ c main_arg3 (by decide))))

theorem V4_v14_0 (c : Dev nD) : (V4 m ρ c main_v14_0 : S6144x6144.Idx → EReal) = adjB m c :=
  (W4_arr m ρ c 3).trans (dat1_out3 m ρ c)
theorem V4_v14_1 (c : Dev nD) : (V4 m ρ c main_v14_1 : S1x6144.Idx → EReal) = colMaxArr (adjB m c) :=
  (W4_arr m ρ c 4).trans (dat1_out4 m ρ c)
theorem V4_v11 (c : Dev nD) : (V4 m ρ c main_v11 : S6144x16.Idx → EReal) = heweArr (m ((c : Thread nD τ).loc main_arg1)) (m ((c : Thread nD τ).loc main_arg8)) :=
  (W4_of_ne m ρ c main_v11 (by decide)).trans
    ((host1_v11 (W2 m ρ c)).trans (heweArr_congr (W2_arg m ρ c main_arg1 (by decide)) (W2_arg m ρ c main_arg8 (by decide))))
theorem V4_v12 (c : Dev nD) : (V4 m ρ c main_v12 : S1x16.Idx → EReal) = beArr (m ((c : Thread nD τ).loc main_arg9)) :=
  (W4_of_ne m ρ c main_v12 (by decide)).trans
    ((host1_v12 (W2 m ρ c)).trans (congrArg beArr (W2_arg m ρ c main_arg9 (by decide))))
theorem dat2_out (c : Dev nD) : ((dat2 (F := Ideal) (V4 m ρ) c).arrAt 4 cfg2.N : S6144x16.Idx → EReal) = out1 m c :=
  (final2 (V4 m ρ) c).trans (heArr_congr (V4_v14_0 m ρ c) (V4_v14_1 m ρ c) (V4_v11 m ρ c) (V4_v12 m ρ c))

theorem run_value : θ_run defs (onTc (τ := τ) (main (F := Ideal))) ⟨m, fun _ => 0, ρ⟩ (fun r => ∀ c : Dev nD,
      r.2.mem ((c.tc : Thread nD τ).loc main_v6) = out0 m c
      ∧ r.2.mem ((c.tc : Thread nD τ).loc main_v15) = out1 m c
      ∧ ArgsKept m r.2.mem c) :=
  (run_all m ρ).mono fun r h c =>
    ⟨(h c _ mem_uc_v6).trans ((W5_res0 m ρ c).trans (dat0_out m ρ c)),
     (h c _ mem_uc_v15).trans ((W5_res1 m ρ c).trans (dat2_out m ρ c)),
     args_kept m ρ c r.mem (h c)⟩

end Cert.KernelIdeal.Val

end
-- ==== Proof.LibDiagScatter.lean ====
import Idealize.ShloMosaic.PureOps.ShapeOps
import Idealize.ShloMosaic.PureOps.Dims
import Idealize.ShloMosaic.Lib.ValueIdx
import Idealize.ShloMosaic.Lib.Pipeline.Value

namespace Cert.LibDiagScatter

open Idealize.ShloMosaic Idealize.ShloMosaic.ValueIdx

theorem foldl_set_const {ι κ α : Type} [DecidableEq ι] (tgt : κ → ι) (c : α) (l : List κ) (x : ι → α) (i : ι) :
    (l.foldl (fun r n => fun i' => if i' = tgt n then c else r i') x) i = if ∃ n ∈ l, i = tgt n then c else x i := by
  induction l generalizing x with
  | nil => simp
  | cons a l ih =>
    rw [List.foldl_cons, ih]
    by_cases h : ∃ n ∈ l, i = tgt n
    · rw [if_pos h, if_pos (by obtain ⟨n, hn, e⟩ := h; exact ⟨n, List.mem_cons_of_mem _ hn, e⟩)]
    · rw [if_neg h]
      by_cases ha : i = tgt a
      · rw [if_pos ha, if_pos ⟨a, List.mem_cons_self, ha⟩]
      · rw [if_neg ha, if_neg]
        rintro ⟨m, hm, e⟩
        rcases List.mem_cons.1 hm with rfl | hm
        · exact ha e
        · exact h ⟨m, hm, e⟩

abbrev Sq (n : Nat) : Shape := ⟨2, ![n, n]⟩
abbrev Pairs (n : Nat) : Shape := ⟨2, ![n, 2]⟩
abbrev Line (n : Nat) : Shape := ⟨1, ![n]⟩

def diagDims (n : Nat) (h : ScatterDims.WF (Sq n) (Pairs n) (Line n) [] [0, 1] [0, 1] 1) :
    ScatterDims (Sq n) (Pairs n) (Line n) :=
  { updateWindowDims := [], insertedWindowDims := [0, 1], scatterDimsToOperandDims := [0, 1], indexVectorDim := 1, wf := h }

variable {n : Nat} (h : ScatterDims.WF (Sq n) (Pairs n) (Line n) [] [0, 1] [0, 1] 1)

theorem mem_axes (a : Fin (Sq n).rank) : a ∈ ([0, 1] : List (Fin (Sq n).rank)) := by
  match a with
  | ⟨0, _⟩ => exact List.mem_cons_self
  | ⟨1, _⟩ => exact List.mem_cons_of_mem _ List.mem_cons_self

theorem window_eq (j : (Line n).Idx) (a : Fin (Sq n).rank) : (diagDims n h).window j a = 0 := by
  unfold ScatterDims.window
  rw [dif_neg]
  show a ∉ (Sq n).kept [0, 1]
  unfold Shape.kept
  intro hm
  exact of_decide_eq_true (List.mem_filter.1 hm).2 (mem_axes a)

theorem siIdx_zero (j : (Line n).Idx) (c : Fin (diagDims n h).scatterDimsToOperandDims.length) :
    ((diagDims n h).siIdx j c 0).val = (j 0).val := by
  unfold ScatterDims.siIdx
  rw [dif_neg (show ¬ ((0 : Fin (Pairs n).rank).val = (diagDims n h).indexVectorDim) from Nat.zero_ne_one)]
  unfold ScatterDims.siCoord
  show (j _).val = (j 0).val
  exact congrArg (fun x => (j x).val) (Subsingleton.elim _ _)

variable {w : Nat}

theorem start_eq (idx : IVec (Pairs n) w) (hidx : ∀ k : (Pairs n).Idx, (idx k).toInt = ((k 0).val : Int))
    (j : (Line n).Idx) (a : Fin (Sq n).rank) : (diagDims n h).start j idx a = ((j 0).val : Int) := by
  unfold ScatterDims.start
  rw [dif_pos (show a ∈ (diagDims n h).scatterDimsToOperandDims from mem_axes a), hidx, siIdx_zero]

theorem resultIdx_eq (idx : IVec (Pairs n) w) (hidx : ∀ k : (Pairs n).Idx, (idx k).toInt = ((k 0).val : Int))
    (j : (Line n).Idx) :
    (diagDims n h).resultIdx? j idx = some (ix2 (n0 := n) (n1 := n) (j 0) (j 0)) := by
  have hs : ∀ a, (diagDims n h).start j idx a + ((diagDims n h).window j a : Int) = ((j 0).val : Int) := fun a => by
    rw [start_eq h idx hidx, window_eq]; simp
  have hn : ∀ a : Fin (Sq n).rank, (Sq n).size a = n := fun a => by
    match a with
    | ⟨0, _⟩ => rfl
    | ⟨1, _⟩ => rfl
  have hj : (j 0).val < n := (j 0).isLt
  unfold ScatterDims.resultIdx?
  rw [dif_pos (fun a => by rw [hs a, hn a]; omega)]
  refine congrArg some (funext fun a => Fin.ext ?_)
  show (((diagDims n h).start j idx a + ((diagDims n h).window j a : Int)).toNat) = _
  rw [hs a]
  match a with
  | ⟨0, _⟩ => simp
  | ⟨1, _⟩ => simp

theorem scatter_diag {α : Type} (x : (Sq n).Idx → α) (idx : IVec (Pairs n) w)
    (hidx : ∀ k : (Pairs n).Idx, (idx k).toInt = ((k 0).val : Int)) (c : α) (p q : Fin n) :
    Host.scatter (diagDims n h) (fun _ b => b) x idx (fun _ => c) (ix2 p q) = if p = q then c else x (ix2 p q) := by
  unfold Host.scatter
  simp only [resultIdx_eq h idx hidx]
  rw [foldl_set_const (fun m : Fin (Line n).numel =>
    ix2 (n0 := n) (n1 := n) ((Line n).rowMajor.symm m 0) ((Line n).rowMajor.symm m 0)) c]
  by_cases hpq : p = q
  · rw [if_pos hpq, if_pos]
    refine ⟨(Line n).rowMajor (ix1 p), List.mem_finRange _, ?_⟩
    rw [Equiv.symm_apply_apply, hpq]
    rfl
  · rw [if_neg hpq, if_neg]
    rintro ⟨m, _, e⟩
    exact hpq ((congrFun e 0).trans (congrFun e 1).symm)

theorem toInt_ofNat_small (m : Nat) (hm : m < 2 ^ 31) : (BitVec.ofNat 32 m).toInt = (m : Int) := by
  have h1 : (BitVec.ofNat 32 m).toNat = m := by rw [BitVec.toNat_ofNat]; exact Nat.mod_eq_of_lt (by omega)
  rw [BitVec.toInt_eq_toNat_of_lt (by rw [h1]; omega), h1]

theorem wrap_toInt (m : Nat) (hm : m < 2 ^ 31) (e : BitVec 32) :
    (Scalar.select (IntOp.cmpi .slt (BitVec.ofNat 32 m) 0#32) (IntOp.addi (BitVec.ofNat 32 m) e) (BitVec.ofNat 32 m)).toInt
      = (m : Int) := by
  have hs : IntOp.cmpi .slt (BitVec.ofNat 32 m) 0#32 = 0#1 := by
    show BitVec.ofBool ((BitVec.ofNat 32 m).slt 0#32) = 0#1
    have : (BitVec.ofNat 32 m).slt 0#32 = false := by
      simp [BitVec.slt, toInt_ofNat_small m hm]
    rw [this]; rfl
  rw [hs]
  unfold Scalar.select
  rw [if_neg (by decide)]
  exact toInt_ofNat_small m hm

abbrev Col (n : Nat) : Shape := ⟨2, ![n, 1]⟩

theorem concat_cols_toInt (a b : IVec (Col n) w) (hc : Shape.Concatenates [Col n, Col n] (Pairs n) 1)
    (ha : ∀ k : (Col n).Idx, (a k).toInt = ((k 0).val : Int)) (hb : ∀ k : (Col n).Idx, (b k).toInt = ((k 0).val : Int))
    (k : (Pairs n).Idx) : (concatenate (Pairs n) 1 [⟨Col n, a⟩, ⟨Col n, b⟩] hc k).toInt = ((k 0).val : Int) := by
  have h1 : (k 1).val < 2 := (k 1).isLt
  by_cases h0 : (k 1).val = 0
  · rw [concatenate_pair_apply_left 1 a b hc k rfl (ix2 (n0 := n) (n1 := 1) (k 0) 0) (fun b' => by
      match b' with
      | ⟨0, _⟩ => rfl
      | ⟨1, _⟩ => exact h0.symm), ha]
    rfl
  · rw [concatenate_pair_apply_right 1 a b hc k rfl rfl (ix2 (n0 := n) (n1 := 1) (k 0) 0) (fun b' hb' => by
      match b', hb' with
      | ⟨0, _⟩, _ => rfl
      | ⟨1, _⟩, hb' => exact absurd rfl hb') (by show 0 + 1 = (k 1).val; omega), hb]
    rfl

end Cert.LibDiagScatter
-- ==== Proof.RefVal.lean ====
import proofs.«158961_j3762391351854_1_alg».proof.Proof.Gen.ReferenceIdeal.Run
import proofs.«158961_j3762391351854_1_alg».proof.Proof.Gen.ReferenceIdeal.Read
import proofs.«158961_j3762391351854_1_alg».proof.Proof.Spec
import proofs.«158961_j3762391351854_1_alg».proof.Proof.LibDiagScatter
import Idealize.ShloMosaic.Lib.ValueIdx
import Idealize.ShloMosaic.Lib.Pipeline.Value
import Idealize.ShloMosaic.Lib.ValueLayout
import Idealize.ShloMosaic.PureOps.Ideal.Laws

noncomputable section

namespace Cert.RefVal

open Cert.ReferenceIdeal Cert.ReferenceIdeal.Gen Cert.ReferenceIdeal.Read Idealize.ShloMosaic Idealize.ShloMosaic.ValueIdx Cert.Spec Cert.LibDiagScatter
open scoped BigOperators

variable (x0 : (⟨S2048x128, .f32⟩ : BufTy).Contents (Elt Ideal)) (x1 : (⟨S6144x16, .f32⟩ : BufTy).Contents (Elt Ideal))
  (x2 : (⟨S2048x2048, .f32⟩ : BufTy).Contents (Elt Ideal)) (x3 : (⟨S6144x6144, .f32⟩ : BufTy).Contents (Elt Ideal))
  (x4 : (⟨S2048x6144, .f32⟩ : BufTy).Contents (Elt Ideal)) (x5 : (⟨S128x64, .f32⟩ : BufTy).Contents (Elt Ideal))
  (x6 : (⟨S64, .f32⟩ : BufTy).Contents (Elt Ideal)) (x7 : (⟨S1x16, .f32⟩ : BufTy).Contents (Elt Ideal))
  (x8 : (⟨S16x16, .f32⟩ : BufTy).Contents (Elt Ideal)) (x9 : (⟨S16, .f32⟩ : BufTy).Contents (Elt Ideal))
  (x10 : (⟨S1x64, .f32⟩ : BufTy).Contents (Elt Ideal))

theorem de_stage (i : Fin 2048) (e : Fin 6144) : val_main_v4 (F := Ideal) x1 x7 (ix2 i e) = deAt x1 x7 e := by
  rw [val_main_v4_apply, val_main_v3_apply, val_main_v2_apply, val_main_v1_apply]
  unfold deAt
  refine Finset.sum_congr rfl fun q _ => ?_
  rw [val_main_v0_apply]
  congr 1
  · exact congrArg x1 (funext fun a => Fin.ext (by
      match a with
      | ⟨0, _⟩ => simp
      | ⟨1, _⟩ => rfl))
  · exact congrArg x7 (funext fun a => Fin.ext (by
      match a with
      | ⟨0, _⟩ => rfl
      | ⟨1, _⟩ => rfl))

theorem one_eq : Ideal.ofBits .f32 0x3F800000#32 = (1 : EReal) := by
  simp [Ideal.ofBits, Ideal.ieee]
  rw [← EReal.coe_mul, ← EReal.coe_one]
  exact congrArg _ (by norm_num)

theorem v5_stage (i : Fin 2048) (e : Fin 6144) :
    val_main_v5 (F := Ideal) x1 x4 x7 (ix2 i e) = x4 (ix2 i e) * deArr x1 x7 (ix2 0 e) := by
  rw [val_main_v5_apply, de_stage]; rfl

theorem gram1_stage (i k : Fin 2048) :
    val_main_v7 (F := Ideal) x1 x4 x7 (ix2 i k) = gram1 x4 (deArr x1 x7) i k := by
  rw [val_main_v7_apply]
  unfold gram1
  refine Finset.sum_congr rfl fun e _ => ?_
  rw [show lidx_main_v7 (ix2 i k) e = ix2 i e from funext fun a => Fin.ext (by
      match a with
      | ⟨0, _⟩ => rfl
      | ⟨1, _⟩ => rfl), v5_stage, val_main_v6_apply]
  congr 1
  exact congrArg x4 (funext fun a => Fin.ext (by
      match a with
      | ⟨0, _⟩ => rfl
      | ⟨1, _⟩ => rfl))

theorem hw_stage (k : Fin 2048) (j : Fin 64) : val_main_v25 (F := Ideal) x0 x5 (ix2 k j) = hwAt x0 x5 k j := by
  rw [val_main_v25_apply]
  unfold hwAt
  refine Finset.sum_congr rfl fun q _ => ?_
  congr 1
  · exact congrArg x0 (funext fun a => Fin.ext (by
      match a with
      | ⟨0, _⟩ => rfl
      | ⟨1, _⟩ => rfl))
  · exact congrArg x5 (funext fun a => Fin.ext (by
      match a with
      | ⟨0, _⟩ => rfl
      | ⟨1, _⟩ => rfl))

theorem bv_stage (i : Fin 2048) (j : Fin 64) : val_main_v28 (F := Ideal) x6 (ix2 i j) = x6 (ix1 j) := by
  rw [val_main_v28_apply, val_main_v27_apply]
  exact congrArg x6 (funext fun a => Fin.ext (by
      match a with
      | ⟨0, _⟩ => rfl))

theorem idx21 (k : S2048x2.Idx) : (val_main_v21 (F := Ideal) k).toInt = ((k 0).val : Int) := by
  unfold val_main_v21
  refine concat_cols_toInt (n := 2048) _ _ _ (fun k' => ?_) (fun k' => ?_) k
  · rw [val_main_v19_apply, val_main_v13_apply, val_main_v10_apply, val_main_v12_apply, val_main_v8_apply]
    exact wrap_toInt _ (by have : (k' 0).val < 2048 := (k' 0).isLt; show (k' 0).val < 2 ^ 31; omega) _
  · rw [val_main_v20_apply, val_main_v18_apply, val_main_v15_apply, val_main_v17_apply, val_main_v8_apply]
    exact wrap_toInt _ (by have : (k' 0).val < 2048 := (k' 0).isLt; show (k' 0).val < 2 ^ 31; omega) _

theorem upd22 : val_main_v22 (F := Ideal) = fun _ => (1 : EReal) :=
  funext fun j => by rw [val_main_v22_apply, val_main_cst_apply]; exact one_eq

theorem v23_stage (i k : Fin 2048) :
    val_main_v23 (F := Ideal) x1 x4 x7 (ix2 i k) = if i = k then 1 else gram1 x4 (deArr x1 x7) i k := by
  unfold val_main_v23
  rw [upd22, ← gram1_stage]
  exact scatter_diag (n := 2048) scatter_S2048x2048_S2048x2_S2048_n_01_01_1.wf (val_main_v7 (F := Ideal) x1 x4 x7)
    (val_main_v21 (F := Ideal)) idx21 (1 : EReal) i k

theorem v24_stage (i k : Fin 2048) :
    val_main_v24 (F := Ideal) x1 x2 x4 x7 (ix2 i k) = adjA x4 (deArr x1 x7) x2 i k := by
  rw [val_main_v24_apply, v23_stage]
  unfold adjA
  by_cases hik : i = k
  · rw [if_pos hik, if_pos hik]; exact one_mul _
  · rw [if_neg hik, if_neg hik]; rfl

theorem ref_res0 : val_main_v29 (F := Ideal) x0 x1 x2 x4 x5 x6 x7 = res0 x0 x1 x2 x4 x5 x6 x7 := by
  funext ij
  obtain ⟨i, j, rfl⟩ : ∃ (i : Fin 2048) (j : Fin 64), ij = ix2 i j := ⟨ij 0, ij 1, eq_ix2 ij⟩
  rw [val_main_v29_apply, val_main_v26_apply, bv_stage]
  have hsum : (∑ k : Fin 2048, val_main_v24 (F := Ideal) x1 x2 x4 x7 (lidx_main_v26 (ix2 i j) k)
        * val_main_v25 (F := Ideal) x0 x5 (ridx_main_v26 (ix2 i j) k))
      = ∑ k : Fin 2048, adjA x4 (deArr x1 x7) x2 i k * hwArr x0 x5 (ix2 k j) :=
    Finset.sum_congr rfl fun k _ => by
      rw [show lidx_main_v26 (ix2 i j) k = ix2 i k from funext fun a => Fin.ext (by
          match a with
          | ⟨0, _⟩ => rfl
          | ⟨1, _⟩ => rfl), show ridx_main_v26 (ix2 i j) k = ix2 k j from funext fun a => Fin.ext (by
          match a with
          | ⟨0, _⟩ => rfl
          | ⟨1, _⟩ => rfl), v24_stage, hw_stage]
      rfl
  rw [hsum]
  rfl

theorem dv_stage (a : Fin 6144) (n : Fin 2048) :
    val_main_v35 (F := Ideal) x0 x1 x2 x4 x5 x6 x7 x10 (ix2 a n) = dvAt (res0 x0 x1 x2 x4 x5 x6 x7) x10 n := by
  rw [val_main_v35_apply, val_main_v34_apply, val_main_v32_apply, val_main_v31_apply, ref_res0]
  unfold dvAt
  refine Finset.sum_congr rfl fun q _ => ?_
  rw [val_main_v30_apply]
  congr 1
  · exact congrArg (res0 x0 x1 x2 x4 x5 x6 x7) (funext fun a => Fin.ext (by
      match a with
      | ⟨0, _⟩ => simp
      | ⟨1, _⟩ => rfl))
  · exact congrArg x10 (funext fun a => Fin.ext (by
      match a with
      | ⟨0, _⟩ => rfl
      | ⟨1, _⟩ => rfl))

theorem v36_stage (a : Fin 6144) (n : Fin 2048) :
    val_main_v36 (F := Ideal) x0 x1 x2 x4 x5 x6 x7 x10 (ix2 a n)
      = x4 (ix2 n a) * dvArr (res0 x0 x1 x2 x4 x5 x6 x7) x10 (ix2 n 0) := by
  rw [val_main_v36_apply, dv_stage, val_main_v33_apply,
    show idx_main_v33 (ix2 a n) = ix2 n a from funext fun a => Fin.ext (by
      match a with
      | ⟨0, _⟩ => rfl
      | ⟨1, _⟩ => rfl)]
  rfl

theorem gram2_stage (a b : Fin 6144) :
    val_main_v37 (F := Ideal) x0 x1 x2 x4 x5 x6 x7 x10 (ix2 a b)
      = gram2 x4 (dvArr (res0 x0 x1 x2 x4 x5 x6 x7) x10) a b := by
  rw [val_main_v37_apply]
  unfold gram2
  refine Finset.sum_congr rfl fun n _ => ?_
  rw [show lidx_main_v37 (ix2 a b) n = ix2 a n from funext fun a => Fin.ext (by
      match a with
      | ⟨0, _⟩ => rfl
      | ⟨1, _⟩ => rfl),
    show ridx_main_v37 (ix2 a b) n = ix2 n b from funext fun a => Fin.ext (by
      match a with
      | ⟨0, _⟩ => rfl
      | ⟨1, _⟩ => rfl), v36_stage]

theorem idx51 (k : S6144x2.Idx) : (val_main_v51 (F := Ideal) k).toInt = ((k 0).val : Int) := by
  unfold val_main_v51
  refine concat_cols_toInt (n := 6144) _ _ _ (fun k' => ?_) (fun k' => ?_) k
  · rw [val_main_v49_apply, val_main_v43_apply, val_main_v40_apply, val_main_v42_apply, val_main_v38_apply]
    exact wrap_toInt _ (by have : (k' 0).val < 6144 := (k' 0).isLt; show (k' 0).val < 2 ^ 31; omega) _
  · rw [val_main_v50_apply, val_main_v48_apply, val_main_v45_apply, val_main_v47_apply, val_main_v38_apply]
    exact wrap_toInt _ (by have : (k' 0).val < 6144 := (k' 0).isLt; show (k' 0).val < 2 ^ 31; omega) _

theorem upd52 : val_main_v52 (F := Ideal) = fun _ => (1 : EReal) :=
  funext fun j => by rw [val_main_v52_apply, val_main_cst_7_apply]; exact one_eq

theorem v53_stage (a b : Fin 6144) :
    val_main_v53 (F := Ideal) x0 x1 x2 x4 x5 x6 x7 x10 (ix2 a b)
      = if a = b then 1 else gram2 x4 (dvArr (res0 x0 x1 x2 x4 x5 x6 x7) x10) a b := by
  unfold val_main_v53
  rw [upd52, ← gram2_stage]
  exact scatter_diag (n := 6144) scatter_S6144x6144_S6144x2_S6144_n_01_01_1.wf
    (val_main_v37 (F := Ideal) x0 x1 x2 x4 x5 x6 x7 x10) (val_main_v51 (F := Ideal)) idx51 (1 : EReal) a b

theorem v54_stage (a b : Fin 6144) :
    val_main_v54 (F := Ideal) x0 x1 x2 x3 x4 x5 x6 x7 x10 (ix2 a b)
      = aAeArr x4 (dvArr (res0 x0 x1 x2 x4 x5 x6 x7) x10) x3 (ix2 a b) := by
  rw [val_main_v54_apply, v53_stage]
  show _ = aAeAt x4 (dvArr (res0 x0 x1 x2 x4 x5 x6 x7) x10) x3 a b
  unfold aAeAt
  by_cases hab : a = b
  · rw [if_pos hab, if_pos hab]; exact one_mul _
  · rw [if_neg hab, if_neg hab]; rfl

theorem v55_stage (b : Fin 6144) :
    val_main_v55 (F := Ideal) x0 x1 x2 x3 x4 x5 x6 x7 x10 (ix1 b)
      = colMaxAt (aAeArr x4 (dvArr (res0 x0 x1 x2 x4 x5 x6 x7) x10) x3) b := by
  have hR : S6144x6144.Reduces [0] S6144 := by decide
  unfold val_main_v55
  rw [Host.reduce_eq_fold_single _ _ _ _ hR _ (ix1 b)]
  have hf : (val_main_v54 (F := Ideal) x0 x1 x2 x3 x4 x5 x6 x7 x10 ∘ hR.lift (ix1 b))
      = fun a : Fin 6144 => aAeArr x4 (dvArr (res0 x0 x1 x2 x4 x5 x6 x7) x10) x3 (ix2 a b) := funext fun (a : Fin 6144) => by
    show val_main_v54 (F := Ideal) x0 x1 x2 x3 x4 x5 x6 x7 x10 (hR.lift (ix1 b) a) = _
    rw [show hR.lift (ix1 b) a = ix2 (n0 := 6144) (n1 := 6144) a b from funext fun a => Fin.ext (by
      match a with
      | ⟨0, _⟩ => rfl
      | ⟨1, _⟩ => rfl), v54_stage]
  rw [hf]
  rfl

theorem v59_stage (i k : Fin 6144) :
    val_main_v59 (F := Ideal) x0 x1 x2 x3 x4 x5 x6 x7 x10 (ix2 i k)
      = colMaxArr (aAeArr x4 (dvArr (res0 x0 x1 x2 x4 x5 x6 x7) x10) x3) (ix2 0 k) + eps := by
  rw [val_main_v59_apply, val_main_v58_apply, val_main_v56_apply, val_main_v57_apply, val_main_cst_9_apply,
    show idx_main_v56 (idx_main_v59 (ix2 i k)) = ix1 k from funext fun a => Fin.ext (by
      match a with
      | ⟨0, _⟩ => rfl), v55_stage]
  rfl

theorem v60_stage (i k : Fin 6144) :
    val_main_v60 (F := Ideal) x0 x1 x2 x3 x4 x5 x6 x7 x10 (ix2 i k)
      = Ideal.div (aAeArr x4 (dvArr (res0 x0 x1 x2 x4 x5 x6 x7) x10) x3 (ix2 i k))
          (colMaxArr (aAeArr x4 (dvArr (res0 x0 x1 x2 x4 x5 x6 x7) x10) x3) (ix2 0 k) + eps) := by
  rw [val_main_v60_apply, v54_stage, v59_stage]
  rfl

theorem hewe_stage (k : Fin 6144) (j : Fin 16) : val_main_v61 (F := Ideal) x1 x8 (ix2 k j) = heweAt x1 x8 k j := by
  rw [val_main_v61_apply]
  unfold heweAt
  refine Finset.sum_congr rfl fun q _ => ?_
  rw [show lidx_main_v61 (ix2 k j) q = ix2 k q from funext fun a => Fin.ext (by
      match a with
      | ⟨0, _⟩ => rfl
      | ⟨1, _⟩ => rfl),
    show ridx_main_v61 (ix2 k j) q = ix2 q j from funext fun a => Fin.ext (by
      match a with
      | ⟨0, _⟩ => rfl
      | ⟨1, _⟩ => rfl)]

theorem be_stage (i : Fin 6144) (j : Fin 16) : val_main_v64 (F := Ideal) x9 (ix2 i j) = x9 (ix1 j) := by
  rw [val_main_v64_apply, val_main_v63_apply]
  exact congrArg x9 (funext fun a => Fin.ext (by
      match a with
      | ⟨0, _⟩ => rfl))

theorem ref_res1 : val_main_v65 (F := Ideal) x0 x1 x2 x3 x4 x5 x6 x7 x8 x9 x10
    = res1 x0 x1 x2 x3 x4 x5 x6 x7 x8 x9 x10 := by
  funext ij
  obtain ⟨i, j, rfl⟩ : ∃ (i : Fin 6144) (j : Fin 16), ij = ix2 i j := ⟨ij 0, ij 1, eq_ix2 ij⟩
  rw [val_main_v65_apply, val_main_v62_apply, be_stage]
  have hsum : (∑ k : Fin 6144, val_main_v60 (F := Ideal) x0 x1 x2 x3 x4 x5 x6 x7 x10 (lidx_main_v62 (ix2 i j) k)
        * val_main_v61 (F := Ideal) x1 x8 (ridx_main_v62 (ix2 i j) k))
      = ∑ k : Fin 6144, Ideal.div (aAeArr x4 (dvArr (res0 x0 x1 x2 x4 x5 x6 x7) x10) x3 (ix2 i k))
            (colMaxArr (aAeArr x4 (dvArr (res0 x0 x1 x2 x4 x5 x6 x7) x10) x3) (ix2 0 k) + eps)
          * heweArr x1 x8 (ix2 k j) :=
    Finset.sum_congr rfl fun k _ => by
      rw [show lidx_main_v62 (ix2 i j) k = ix2 i k from funext fun a => Fin.ext (by
      match a with
      | ⟨0, _⟩ => rfl
      | ⟨1, _⟩ => rfl),
        show ridx_main_v62 (ix2 i j) k = ix2 k j from funext fun a => Fin.ext (by
      match a with
      | ⟨0, _⟩ => rfl
      | ⟨1, _⟩ => rfl), v60_stage, hewe_stage]
      rfl
  rw [hsum]
  rfl

end Cert.RefVal
-- ==== Proof.lean ====
/-
  Both programs return, over the extended reals,
    Hv = A (H_v W_v) + b_v,  A(i,k) = adj_v(i,k) if i = k, else (Σ_e T(i,e) d_e(e) T(k,e)) adj_v(i,k),  d_e = H_e p_vᵀ;
    He = (B / (colmax B + ε)) (H_e W_e) + b_e,  B(a,b) = adj_e(a,b) if a = b, else (Σ_n T(n,a) d_v(n) T(n,b)) adj_e(a,b),  d_v = Hv p_eᵀ.
  The kernel forms the Gram sums, the column maxima and the last product one block at a time; sums and maxima are
  indifferent to grouping. The reference writes ones on the Gram diagonal before it multiplies by the adjacency; 1 · x = x.
-/
import proofs.«158961_j3762391351854_1_alg».proof.Defs
import proofs.«158961_j3762391351854_1_alg».proof.Proof.Gen.Kernel
import proofs.«158961_j3762391351854_1_alg».proof.Proof.Gen.KernelIdeal
import proofs.«158961_j3762391351854_1_alg».proof.Proof.Gen.ReferenceIdeal
import proofs.«158961_j3762391351854_1_alg».proof.Proof.Gen.Pre_finite_inputs
import proofs.«158961_j3762391351854_1_alg».proof.Proof.Gen.ReferenceIdeal.Run
import proofs.«158961_j3762391351854_1_alg».proof.Proof.Gen.ReferenceIdeal.Read
import proofs.«158961_j3762391351854_1_alg».proof.Proof.KI.Run
import proofs.«158961_j3762391351854_1_alg».proof.Proof.KI.Value
import proofs.«158961_j3762391351854_1_alg».proof.Proof.RefVal
import Idealize.ShloMosaic.Adequacy
import Idealize.ShloMosaic.Init

noncomputable section

namespace Cert.Proof

open Idealize.ShloMosaic Idealize.SL.Sem

-- The word-level program is the idealized one's text in another namespace: label by label the same body.
theorem defs₀_eq {F : FTy → Type} [FloatOps F] : Cert.Kernel.defs₀ (F := F) = Cert.KernelIdeal.defs₀ (F := F) :=
  congrArg Defs.onTc (funext fun l => funext fun a => match l, a with
    | 0, (t, s) => rfl
    | 1, (t, s) => rfl
    | 2, (t, s) => rfl
    | ⟨_ + 3, h⟩, _ => absurd h (Nat.not_lt.2 (Nat.le_add_left _ _)))

theorem defs_eq {F : FTy → Type} [FloatOps F] : Cert.Kernel.defs (F := F) = Cert.KernelIdeal.defs (F := F) :=
  congrArg (Pipeline.defs Cert.KernelIdeal.pcfgs) defs₀_eq

-- So the frame proved at every `F` for the idealized program is the word-level program's at `Bits`.
theorem frame_k : Cert.frame_Kernel := fun m ρ _ => by
  have h := Cert.KernelIdeal.Fr.frame (F := Bits) m ρ
  rw [← defs_eq] at h
  exact h

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Val.out0 m c, fun c => Cert.KernelIdeal.Val.out1 m c, Cert.KernelIdeal.Val.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v29_eq, Cert.RefVal.ref_res0, h0, h1, h2, h4, h5, h6, h7]
  · obtain ⟨h0, h1, h2, h3, h4, h5, h6, h7, h8, h9, h10⟩ := hagree c
    rw [Cert.ReferenceIdeal.Read.val_main_v65_eq, Cert.RefVal.ref_res1, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
